-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S512x128 : Shape := ⟨2, ![512, 128]⟩
abbrev S1x512 : Shape := ⟨2, ![1, 512]⟩
abbrev S2000x128 : Shape := ⟨2, ![2000, 128]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩

abbrev nBuf : Space → Nat
  | .hbm => 73
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .bf16⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x128, .f32⟩
  | .hbm, ⟨48, _⟩ => ⟨S100000x128, .bf16⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .bf16⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x1, .i32⟩
  | .hbm, ⟨65, _⟩ => ⟨S512x128, .f32⟩
  | .hbm, ⟨66, _⟩ => ⟨S1x512, .f32⟩
  | .hbm, ⟨67, _⟩ => ⟨S512x1, .f32⟩
  | .hbm, ⟨68, _⟩ => ⟨S_, .f32⟩
  | .hbm, ⟨69, _⟩ => ⟨S512x1, .f32⟩
  | .hbm, ⟨70, _⟩ => ⟨S512x1, .f32⟩
  | .hbm, ⟨71, _⟩ => ⟨S512x128, .f32⟩
  | .hbm, ⟨72, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x1, .i32⟩
  | .local _ .vmem, ⟨21, _⟩ => ⟨S2000x1, .i32⟩
  | .local _ .vmem, ⟨22, _⟩ => ⟨S512x128, .f32⟩
  | .local _ .vmem, ⟨23, _⟩ => ⟨S1x512, .f32⟩
  | .local _ .vmem, ⟨24, _⟩ => ⟨S512x128, .f32⟩
  | .local _ .vmem, ⟨25, _⟩ => ⟨S1x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_scratch0 : Ref sig .tc := ⟨.vmem, 24, rfl⟩
abbrev cc2_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v39 : BitVec 1 := Scalar.cmpi .eq arg0 c49_i32
  let v40 : BitVec 32 := Scalar.extui v39
  let c0_i32_18 : BitVec 32 := 0#32
  let v41 : BitVec 1 := Scalar.cmpi .ne v40 c0_i32_18
  v41

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S2000x512_d1_w32 : S2000x512.Iotas .tc 32 [1]
  broadcasts_S2000x1_S2000x512 : S2000x1.Broadcasts S2000x512
  natLt_1_32 : 1 < 32
  reduces_S2000x512_S512 : S2000x512.Reduces [0] S512
  shapeCasts_S512_S1x512 : S512.ShapeCasts S1x512
  shapeCasts_S1x512_S512x1 : S1x512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x512_S2000x128_S512x128_0_0_1_1_n_n_wf : DotDims.WF S2000x512 S2000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45_0) S512x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_1) S1x512.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S512x128, .f32⟩
  | .hbm, ⟨98, _⟩ => ⟨S100000x1, .i32⟩
  | .hbm, ⟨99, _⟩ => ⟨S512x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S512, .f32⟩
  | .hbm, ⟨104, _⟩ => ⟨S100000x1, .i32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x128, .f32⟩
  | .hbm, ⟨111, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.KI.Reg0.lean ====
import proofs.«423030_j12790412607644_2_alg».proof.Proof.Gen.KernelIdeal.Launch
import proofs.«423030_j12790412607644_2_alg».proof.Proof.Gen.KernelIdeal.Skeleton
import proofs.«423030_j12790412607644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .bf16 :=
  View.canon [⟨r0_x, k0_pay1 (View.ld x0 r0_x) (View.ld x1 r0_w) (View.ld x2 r0_d)⟩]

theorem cover0_3 (p0 : Vec F S5000x128 .bf16) (y : S5000x128.Idx) :
    ∃ pc ∈ ([⟨r0_x, p0⟩] : List (View.Piece (Elt F) S5000x128 .bf16)), y ∈ pc.1.set :=
  View.cover_of_tiled [⟨r0_x, p0⟩] S5000x128.size (by rfl) y

set_option maxHeartbeats 4000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  iframe

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«423030_j12790412607644_2_alg».proof.Proof.Gen.KernelIdeal.Launch
import proofs.«423030_j12790412607644_2_alg».proof.Proof.Gen.KernelIdeal.Skeleton
import proofs.«423030_j12790412607644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

def out1_4 (x0 : Vec F S5000x128 .f32) (x1 : Vec F S5000x1 .f32) (x2 : Vec F S1x128 .f32) (x3 : Vec F S128x128 .f32) : Vec F S5000x128 .bf16 :=
  View.canon [⟨r1_x, k1_pay1 (View.ld x0 r1_x) (View.ld x1 r1_d) (View.ld x2 r1_b) (View.ld x3 r1_w) (View.ld x1 r1_d)⟩]

theorem cover1_4 (p0 : Vec F S5000x128 .bf16) (y : S5000x128.Idx) :
    ∃ pc ∈ ([⟨r1_x, p0⟩] : List (View.Piece (Elt F) S5000x128 .bf16)), y ∈ pc.1.set :=
  View.cover_of_tiled [⟨r1_x, p0⟩] S5000x128.size (by rfl) y

set_option maxHeartbeats 4000000 in

theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole)
    (arg3 : Memref sig .tc .vmem S1x128 .f32) (harg3 : arg3.IsWhole) (arg4 : Memref sig .tc .vmem S128x128 .f32) (harg4 : arg4.IsWhole) (arg5 : Memref sig .tc .vmem S5000x128 .bf16) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__relu_bias_matmul_scaled_kernel i arg1 harg1 arg2 harg2 arg3 harg3 arg4 harg4 arg5 harg5) K := by
  simp only [cc1__relu_bias_matmul_scaled_kernel_eq_skeleton]; unfold cc1__relu_bias_matmul_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  iframe

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2Pre.lean ====
import proofs.«423030_j12790412607644_2_alg».proof.Proof.Gen.KernelIdeal.Launch
import proofs.«423030_j12790412607644_2_alg».proof.Proof.Gen.KernelIdeal.Skeleton
import proofs.«423030_j12790412607644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 49 :=
  (by decide +kernel : ∀ t : Fin grid2.N, cond2_1 (grid2.coords t) ↔ t.val = 49)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel
theorem liveAt2_4_C : ∀ t : Fin cfg2.N, ¬cond2_0 (grid2.coords t) → cond2_1 (grid2.coords t) → cfg2.idle 4 (grid2.coords t) = false := by decide +kernel

theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
theorem liveAt2_5_C : ∀ t : Fin cfg2.N, ¬cond2_0 (grid2.coords t) → cond2_1 (grid2.coords t) → cfg2.idle 5 (grid2.coords t) = false := by decide +kernel

abbrev VO2_4 : View sig .tc .vmem S512x128 .f32 := (Memref.whole cc2_stg4_0 : Memref sig .tc .vmem S512x128 .f32).view
abbrev VO2_5 : View sig .tc .vmem S1x512 .f32 := (Memref.whole cc2_stg5_0 : Memref sig .tc .vmem S1x512 .f32).view

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)

abbrev scM2_0 : Memref sig .tc .vmem S512x128 .f32 := Memref.whole cc2_scratch0
abbrev scM2_1 : Memref sig .tc .vmem S1x512 .f32 := Memref.whole cc2_scratch1
abbrev VS2_0 : View sig .tc .vmem S512x128 .f32 := scM2_0.view
abbrev VS2_1 : View sig .tc .vmem S1x512 .f32 := scM2_1.view

def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

theorem PhiA2_open (c : Dev nD) :
    (Pipeline.ΦA spec2 c : sProp 𝕄)
      ⊢ iprop((rest2 (F := F) c ∗ (∃ d, owns (c : Thread nD τ) scM2_0 fullShare d) ∗ (∃ d, owns (c : Thread nD τ) scM2_1 fullShare d)) ∗ (∃ r, prngReg c r)) := by
  unfold Pipeline.ΦA rest2; rw [scopedRest2_eq]; simp only [scM2_0, scM2_1, owns_whole]
  iintro ⟨⟨H0, H1, H2, H3, H4, H5, H6, H7, H8, H9, H10, H11, H12, H13, H14, HS0, HS1⟩, Hg⟩
  iframe

theorem PhiA2_close (c : Dev nD) :
    iprop((rest2 (F := F) c ∗ (∃ d, owns (c : Thread nD τ) scM2_0 fullShare d) ∗ (∃ d, owns (c : Thread nD τ) scM2_1 fullShare d)) ∗ (∃ r, prngReg c r))
      ⊢ (Pipeline.ΦA spec2 c : sProp 𝕄) := by
  unfold Pipeline.ΦA rest2; rw [scopedRest2_eq]; simp only [scM2_0, scM2_1, owns_whole]
  iintro ⟨⟨⟨H0, H1, H2, H3, H4, H5, H6, H7, H8, H9, H10, H11, H12, H13, H14⟩, HS0, HS1⟩, Hg⟩
  iframe

end Cert.KernelIdeal.Fr

end
-- ==== Proof.KI.Reg2RunA.lean ====
import proofs.«423030_j12790412607644_2_alg».proof.Proof.KI.Reg2Pre

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun2_A (c : Dev nD) (i : grid2.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S512x128 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x512 .f32) (harg8 : arg8.IsWhole) (hc0 : cond2_0 i) (hc1 : ¬cond2_1 i)
    (x0 : Vec F S2000x128 .f32) (x1 : Vec F S2000x1 .f32) (x2 : Vec F S1x128 .f32) (x3 : Vec F S2000x1 .i32) :
    Σ' (L4 : List (View.Piece (Elt F) S512x128 .f32)) (L5 : List (View.Piece (Elt F) S1x512 .f32)) (LS0 : List (View.Piece (Elt F) S512x128 .f32)), { LS1 : List (View.Piece (Elt F) S1x512 .f32) //
      ∀ (xi4 : Vec F S512x128 .f32) (xi5 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_bias_meanpool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc2__relu_bias_meanpool_kernel_eq_skeleton]; unfold cc2__relu_bias_meanpool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Fr

end
-- ==== Proof.KI.Reg2RunB.lean ====
import proofs.«423030_j12790412607644_2_alg».proof.Proof.KI.Reg2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun2_B (c : Dev nD) (i : grid2.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S512x128 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x512 .f32) (harg8 : arg8.IsWhole) (hc0 : ¬cond2_0 i) (hc1 : ¬cond2_1 i)
    (x0 : Vec F S2000x128 .f32) (x1 : Vec F S2000x1 .f32) (x2 : Vec F S1x128 .f32) (x3 : Vec F S2000x1 .i32) (xs0 : Vec F S512x128 .f32) (xs1 : Vec F S1x512 .f32) :
    Σ' (L4 : List (View.Piece (Elt F) S512x128 .f32)) (L5 : List (View.Piece (Elt F) S1x512 .f32)) (LS0 : List (View.Piece (Elt F) S512x128 .f32)), { LS1 : List (View.Piece (Elt F) S1x512 .f32) //
      ∀ (xi4 : Vec F S512x128 .f32) (xi5 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_bias_meanpool_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc2__relu_bias_meanpool_kernel_eq_skeleton]; unfold cc2__relu_bias_meanpool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Fr

end
-- ==== Proof.KI.Reg2RunC.lean ====
import proofs.«423030_j12790412607644_2_alg».proof.Proof.KI.Reg2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun2_C (c : Dev nD) (i : grid2.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x1 .i32) (harg4 : arg4.IsWhole) (arg5 : Memref sig .tc .vmem S512x128 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x512 .f32) (harg8 : arg8.IsWhole) (hc0 : ¬cond2_0 i) (hc1 : cond2_1 i)
    (x0 : Vec F S2000x128 .f32) (x1 : Vec F S2000x1 .f32) (x2 : Vec F S1x128 .f32) (x3 : Vec F S2000x1 .i32) (xs0 : Vec F S512x128 .f32) (xs1 : Vec F S1x512 .f32) :
    Σ' (L4 : List (View.Piece (Elt F) S512x128 .f32)) (L5 : List (View.Piece (Elt F) S1x512 .f32)) (LS0 : List (View.Piece (Elt F) S512x128 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_bias_meanpool_kernel i arg1 harg1 arg2 harg2 arg3 harg3 arg4 harg4 arg5 harg5 arg6 harg6 arg7 harg7 arg8 harg8) K } := by
  refine ⟨?_, ?_, ?_, ?_, fun E K => ?run⟩
  case run =>
    simp only [cc2__relu_bias_meanpool_kernel_eq_skeleton]; unfold cc2__relu_bias_meanpool_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Fr

end
-- ==== Proof.KI.Reg2.lean ====
import proofs.«423030_j12790412607644_2_alg».proof.Proof.KI.Reg2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev hsc2_0 : (scM2_0 : Memref sig .tc .vmem S512x128 .f32).IsWhole := Memref.isWhole_whole _
abbrev hsc2_1 : (scM2_1 : Memref sig .tc .vmem S1x512 .f32).IsWhole := Memref.isWhole_whole _

/-- The body's three runs at grid point t, on that point's memrefs. -/
abbrev runA (c : Dev nD) (t : Fin cfg2.N) (hc0 : cond2_0 (grid2.coords t)) (hc1 : ¬cond2_1 (grid2.coords t))
    (x0 : Vec F S2000x128 .f32) (x1 : Vec F S2000x1 .f32) (x2 : Vec F S1x128 .f32) (x3 : Vec F S2000x1 .i32) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hsc2_0 scM2_1 hsc2_1 hc0 hc1 x0 x1 x2 x3
abbrev runB (c : Dev nD) (t : Fin cfg2.N) (hc0 : ¬cond2_0 (grid2.coords t)) (hc1 : ¬cond2_1 (grid2.coords t))
    (x0 : Vec F S2000x128 .f32) (x1 : Vec F S2000x1 .f32) (x2 : Vec F S1x128 .f32) (x3 : Vec F S2000x1 .i32) (xs0 : Vec F S512x128 .f32) (xs1 : Vec F S1x512 .f32) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hsc2_0 scM2_1 hsc2_1 hc0 hc1 x0 x1 x2 x3 xs0 xs1
abbrev runC (c : Dev nD) (t : Fin cfg2.N) (hc0 : ¬cond2_0 (grid2.coords t)) (hc1 : cond2_1 (grid2.coords t))
    (x0 : Vec F S2000x128 .f32) (x1 : Vec F S2000x1 .f32) (x2 : Vec F S1x128 .f32) (x3 : Vec F S2000x1 .i32) (xs0 : Vec F S512x128 .f32) (xs1 : Vec F S1x512 .f32) :=
  kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hsc2_0 scM2_1 hsc2_1 hc0 hc1 x0 x1 x2 x3 xs0 xs1

section
variable (c : Dev nD) (t : Fin cfg2.N) (hc0 : cond2_0 (grid2.coords t)) (hc1 : ¬cond2_1 (grid2.coords t)) (x0 : Vec F S2000x128 .f32) (x1 : Vec F S2000x1 .f32) (x2 : Vec F S1x128 .f32) (x3 : Vec F S2000x1 .i32)

def out2_A_4 : Vec F S512x128 .f32 :=
  VO2_4.read (Elt F) (VO2_4.writes (Elt F) VO2_4.junk (runA c t hc0 hc1 x0 x1 x2 x3).1)
def out2_A_5 : Vec F S1x512 .f32 :=
  VO2_5.read (Elt F) (VO2_5.writes (Elt F) VO2_5.junk (runA c t hc0 hc1 x0 x1 x2 x3).2.1)

theorem scover2_A_0 (y : S512x128.Idx) :
    ∃ pc ∈ (runA c t hc0 hc1 x0 x1 x2 x3).2.2.1, y ∈ pc.1.set :=
  View.cover_of_tiledL (runA c t hc0 hc1 x0 x1 x2 x3).2.2.1 S512x128.size (by sl_kernel_rfl) y

def sout2_A_0 : Vec F S512x128 .f32 :=
  VS2_0.read (Elt F) (VS2_0.writes (Elt F) VS2_0.junk (runA c t hc0 hc1 x0 x1 x2 x3).2.2.1)

theorem scover2_A_1 (y : S1x512.Idx) :
    ∃ pc ∈ (runA c t hc0 hc1 x0 x1 x2 x3).2.2.2.1, y ∈ pc.1.set :=
  View.cover_of_tiledL (runA c t hc0 hc1 x0 x1 x2 x3).2.2.2.1 S1x512.size (by sl_kernel_rfl) y

def sout2_A_1 : Vec F S1x512 .f32 :=
  VS2_1.read (Elt F) (VS2_1.writes (Elt F) VS2_1.junk (runA c t hc0 hc1 x0 x1 x2 x3).2.2.2.1)

end

section
variable (c : Dev nD) (t : Fin cfg2.N) (hc0 : ¬cond2_0 (grid2.coords t)) (hc1 : ¬cond2_1 (grid2.coords t)) (x0 : Vec F S2000x128 .f32) (x1 : Vec F S2000x1 .f32) (x2 : Vec F S1x128 .f32) (x3 : Vec F S2000x1 .i32) (xs0 : Vec F S512x128 .f32) (xs1 : Vec F S1x512 .f32)

def out2_B_4 : Vec F S512x128 .f32 :=
  VO2_4.read (Elt F) (VO2_4.writes (Elt F) VO2_4.junk (runB c t hc0 hc1 x0 x1 x2 x3 xs0 xs1).1)
def out2_B_5 : Vec F S1x512 .f32 :=
  VO2_5.read (Elt F) (VO2_5.writes (Elt F) VO2_5.junk (runB c t hc0 hc1 x0 x1 x2 x3 xs0 xs1).2.1)

theorem scover2_B_0 (y : S512x128.Idx) :
    ∃ pc ∈ (runB c t hc0 hc1 x0 x1 x2 x3 xs0 xs1).2.2.1, y ∈ pc.1.set :=
  View.cover_of_tiledL (runB c t hc0 hc1 x0 x1 x2 x3 xs0 xs1).2.2.1 S512x128.size (by sl_kernel_rfl) y

def sout2_B_0 : Vec F S512x128 .f32 :=
  VS2_0.read (Elt F) (VS2_0.writes (Elt F) VS2_0.junk (runB c t hc0 hc1 x0 x1 x2 x3 xs0 xs1).2.2.1)

theorem scover2_B_1 (y : S1x512.Idx) :
    ∃ pc ∈ (runB c t hc0 hc1 x0 x1 x2 x3 xs0 xs1).2.2.2.1, y ∈ pc.1.set :=
  View.cover_of_tiledL (runB c t hc0 hc1 x0 x1 x2 x3 xs0 xs1).2.2.2.1 S1x512.size (by sl_kernel_rfl) y

def sout2_B_1 : Vec F S1x512 .f32 :=
  VS2_1.read (Elt F) (VS2_1.writes (Elt F) VS2_1.junk (runB c t hc0 hc1 x0 x1 x2 x3 xs0 xs1).2.2.2.1)

end

section
variable (c : Dev nD) (t : Fin cfg2.N) (hc0 : ¬cond2_0 (grid2.coords t)) (hc1 : cond2_1 (grid2.coords t)) (x0 : Vec F S2000x128 .f32) (x1 : Vec F S2000x1 .f32) (x2 : Vec F S1x128 .f32) (x3 : Vec F S2000x1 .i32) (xs0 : Vec F S512x128 .f32) (xs1 : Vec F S1x512 .f32)

theorem cover2_C_4 (y : S512x128.Idx) :
    ∃ pc ∈ (runC c t hc0 hc1 x0 x1 x2 x3 xs0 xs1).1, y ∈ pc.1.set :=
  View.cover_of_tiledL (runC c t hc0 hc1 x0 x1 x2 x3 xs0 xs1).1 S512x128.size (by sl_kernel_rfl) y

def out2_C_4 : Vec F S512x128 .f32 :=
  VO2_4.read (Elt F) (VO2_4.writes (Elt F) VO2_4.junk (runC c t hc0 hc1 x0 x1 x2 x3 xs0 xs1).1)

theorem cover2_C_5 (y : S1x512.Idx) :
    ∃ pc ∈ (runC c t hc0 hc1 x0 x1 x2 x3 xs0 xs1).2.1, y ∈ pc.1.set :=
  View.cover_of_tiledL (runC c t hc0 hc1 x0 x1 x2 x3 xs0 xs1).2.1 S1x512.size (by sl_kernel_rfl) y

def out2_C_5 : Vec F S1x512 .f32 :=
  VO2_5.read (Elt F) (VO2_5.writes (Elt F) VO2_5.junk (runC c t hc0 hc1 x0 x1 x2 x3 xs0 xs1).2.1)

theorem scover2_C_0 (y : S512x128.Idx) :
    ∃ pc ∈ (runC c t hc0 hc1 x0 x1 x2 x3 xs0 xs1).2.2.1, y ∈ pc.1.set :=
  View.cover_of_tiledL (runC c t hc0 hc1 x0 x1 x2 x3 xs0 xs1).2.2.1 S512x128.size (by sl_kernel_rfl) y

def sout2_C_0 : Vec F S512x128 .f32 :=
  VS2_0.read (Elt F) (VS2_0.writes (Elt F) VS2_0.junk (runC c t hc0 hc1 x0 x1 x2 x3 xs0 xs1).2.2.1)

theorem scover2_C_1 (y : S1x512.Idx) :
    ∃ pc ∈ (runC c t hc0 hc1 x0 x1 x2 x3 xs0 xs1).2.2.2.1, y ∈ pc.1.set :=
  View.cover_of_tiledL (runC c t hc0 hc1 x0 x1 x2 x3 xs0 xs1).2.2.2.1 S1x512.size (by sl_kernel_rfl) y

def sout2_C_1 : Vec F S1x512 .f32 :=
  VS2_1.read (Elt F) (VS2_1.writes (Elt F) VS2_1.junk (runC c t hc0 hc1 x0 x1 x2 x3 xs0 xs1).2.2.2.1)

end

def outsAt2 (c : Dev nD) : (n : ℕ) → n < cfg2.N → Vec F S512x128 .f32 × Vec F S1x512 .f32 × Vec F S512x128 .f32 × Vec F S1x512 .f32
  | 0, hn => (out2_A_4 c ⟨0, hn⟩ ((hcond2_0 ⟨0, hn⟩).mpr rfl) (fun h => absurd ((hcond2_1 ⟨0, hn⟩).mp h) (show ¬((0 : ℕ) = 49) from by decide)) (iblk2 V c 0 ⟨0, hn⟩) (iblk2 V c 1 ⟨0, hn⟩) (iblk2 V c 2 ⟨0, hn⟩) (iblk2 V c 3 ⟨0, hn⟩), out2_A_5 c ⟨0, hn⟩ ((hcond2_0 ⟨0, hn⟩).mpr rfl) (fun h => absurd ((hcond2_1 ⟨0, hn⟩).mp h) (show ¬((0 : ℕ) = 49) from by decide)) (iblk2 V c 0 ⟨0, hn⟩) (iblk2 V c 1 ⟨0, hn⟩) (iblk2 V c 2 ⟨0, hn⟩) (iblk2 V c 3 ⟨0, hn⟩), sout2_A_0 c ⟨0, hn⟩ ((hcond2_0 ⟨0, hn⟩).mpr rfl) (fun h => absurd ((hcond2_1 ⟨0, hn⟩).mp h) (show ¬((0 : ℕ) = 49) from by decide)) (iblk2 V c 0 ⟨0, hn⟩) (iblk2 V c 1 ⟨0, hn⟩) (iblk2 V c 2 ⟨0, hn⟩) (iblk2 V c 3 ⟨0, hn⟩), sout2_A_1 c ⟨0, hn⟩ ((hcond2_0 ⟨0, hn⟩).mpr rfl) (fun h => absurd ((hcond2_1 ⟨0, hn⟩).mp h) (show ¬((0 : ℕ) = 49) from by decide)) (iblk2 V c 0 ⟨0, hn⟩) (iblk2 V c 1 ⟨0, hn⟩) (iblk2 V c 2 ⟨0, hn⟩) (iblk2 V c 3 ⟨0, hn⟩))
  | n + 1, hn =>
    if h1 : n + 1 = 49 then
      (out2_C_4 c ⟨n + 1, hn⟩ (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, out2_C_5 c ⟨n + 1, hn⟩ (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_0 c ⟨n + 1, hn⟩ (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_C_1 c ⟨n + 1, hn⟩ (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)
    else
      (out2_B_4 c ⟨n + 1, hn⟩ (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, out2_B_5 c ⟨n + 1, hn⟩ (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_B_0 c ⟨n + 1, hn⟩ (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, sout2_B_1 c ⟨n + 1, hn⟩ (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)

theorem outsAt2_A (c : Dev nD) (t : Fin cfg2.N) (h0 : t.val = 0) :
    outsAt2 V c t.val t.isLt = (out2_A_4 c t ((hcond2_0 t).mpr h0) (fun h => by have := (hcond2_1 t).mp h; omega) (iblk2 V c 0 t) (iblk2 V c 1 t) (iblk2 V c 2 t) (iblk2 V c 3 t), out2_A_5 c t ((hcond2_0 t).mpr h0) (fun h => by have := (hcond2_1 t).mp h; omega) (iblk2 V c 0 t) (iblk2 V c 1 t) (iblk2 V c 2 t) (iblk2 V c 3 t), sout2_A_0 c t ((hcond2_0 t).mpr h0) (fun h => by have := (hcond2_1 t).mp h; omega) (iblk2 V c 0 t) (iblk2 V c 1 t) (iblk2 V c 2 t) (iblk2 V c 3 t), sout2_A_1 c t ((hcond2_0 t).mpr h0) (fun h => by have := (hcond2_1 t).mp h; omega) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 49) :
    outsAt2 V c t.val t.isLt = (out2_B_4 c t (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_5 c t (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c t (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c t (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt2_C (c : Dev nD) (t : Fin cfg2.N) (h1 : t.val = 49) :
    outsAt2 V c t.val t.isLt = (out2_C_4 c t (fun h => by have := (hcond2_0 t).mp h; omega) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_5 c t (fun h => by have := (hcond2_0 t).mp h; omega) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c t (fun h => by have := (hcond2_0 t).mp h; omega) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c t (fun h => by have := (hcond2_0 t).mp h; omega) ((hcond2_1 t).mpr h1) (iblk2 V c 0 t) (iblk2 V c 1 t) (iblk2 V c 2 t) (iblk2 V c 3 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact absurd h1 (show ¬((0 : ℕ) = 49) from by decide)
  | succ n => exact (dif_pos h1).trans rfl

def PhiS2 (c : Dev nD) : (n : ℕ) → n ≤ cfg2.N → sProp 𝕄
  | 0, _ => Pipeline.ΦA spec2 c
  | n + 1, hn => iprop((rest2 (F := F) c ∗ owns (c : Thread nD τ) scM2_0 fullShare ((outsAt2 V c n hn).2.2.1) ∗ owns (c : Thread nD τ) scM2_1 fullShare ((outsAt2 V c n hn).2.2.2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((rest2 (F := F) c ∗ owns (c : Thread nD τ) scM2_0 fullShare ((outsAt2 V c n hn).2.2.1) ∗ owns (c : Thread nD τ) scM2_1 fullShare ((outsAt2 V c n hn).2.2.2)) ∗ (∃ r, prngReg c r)) := rfl

theorem PhiS2_pos (c : Dev nD) (n : ℕ) (h : n ≤ cfg2.N) (hz : n ≠ 0) :
    PhiS2 V c n h = iprop((rest2 (F := F) c ∗ owns (c : Thread nD τ) scM2_0 fullShare ((outsAt2 V c (n - 1) (by omega)).2.2.1) ∗ owns (c : Thread nD τ) scM2_1 fullShare ((outsAt2 V c (n - 1) (by omega)).2.2.2)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 4 t (idleAt2_4_A t hc0 hc1) (noFlush2_4_A t hc0 hc1)]
    rw [Dat.leavesExact_idle (dat2 V c) 5 t (idleAt2_5_A t hc0 hc1) (noFlush2_5_A t hc0 hc1)]
    rw [outsAt2_A V c t h0]
    unfold sout2_A_0 sout2_A_1; (try dsimp only)
    rw [PhiS2_castSucc V c t, PhiS2_zero V c _ _ h0]
    refine (sep_mono_left (PhiA2_open c)).trans ?_
    iintro ⟨⟨⟨HR, ⟨%ds0, HS0⟩, ⟨%ds1, HS1⟩⟩, Hg⟩, Ho, ⟨%d0, H0⟩, ⟨%d1, H1⟩, ⟨%d2, H2⟩, ⟨%d3, H3⟩, ⟨%d4, H4⟩, ⟨%d5, H5⟩⟩
    iapply ((runA c t hc0 hc1 (iblk2 V c 0 t) (iblk2 V c 1 t) (iblk2 V c 2 t) (iblk2 V c 3 t)).2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexists _; iexact HS0
    isplitl [HS1]; · iexists _; iexact HS1
    iintro ⟨H0, H1, H2, H3, H4, H5, ⟨%es0, HS0⟩, ⟨%es1, HS1⟩⟩
    isplitl [HR HS0 HS1 Hg]
    · isplitr [Hg]
      swap; · iexact Hg
      isplitl [HR]; · iexact HR
      isplitl [HS0]
      · unfold owns; iexists _; isplitr
        swap; · iexact HS0
        ipureintro; exact View.read_writes_of_cover _ _ _ _ _ (scover2_A_0 c _ _ _ _ _ _ _)
      unfold owns; iexists _; isplitr
      swap; · iexact HS1
      ipureintro; exact View.read_writes_of_cover _ _ _ _ _ (scover2_A_1 c _ _ _ _ _ _ _)
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 49
    · have hc0 : ¬cond2_0 (grid2.coords t) := fun h => h0 ((hcond2_0 t).mp h)
      have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4_C t hc0 hc1], after2_4]
      rw [show (dat2 V c).leavesExact 5 t = owns (c : Thread nD τ) (ms2_5 t) fullShare ((dat2 V c).after 5 t) from by
        unfold Dat.leavesExact; rw [liveAt2_5_C t hc0 hc1], after2_5]
      rw [outsAt2_C V c t h1]
      unfold out2_C_4 out2_C_5 sout2_C_0 sout2_C_1; (try dsimp only)
      rw [PhiS2_castSucc V c t, PhiS2_pos V c _ _ h0]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runC c t hc0 hc1 (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR HS0 HS1 Hg]
      · isplitr [Hg]
        swap; · iexact Hg
        isplitl [HR]; · iexact HR
        isplitl [HS0]
        · unfold owns; iexists _; isplitr
          swap; · iexact HS0
          ipureintro; exact View.read_writes_of_cover _ _ _ _ _ (scover2_C_0 c _ _ _ _ _ _ _ _ _)
        unfold owns; iexists _; isplitr
        swap; · iexact HS1
        ipureintro; exact View.read_writes_of_cover _ _ _ _ _ (scover2_C_1 c _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _)
      unfold owns; iexists _; isplitr
      swap; · iexact H5
      ipureintro; exact View.read_writes_of_cover _ _ _ _ _ (cover2_C_5 c _ _ _ _ _ _ _ _ _)
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 4 t (idleAt2_4_B t hc0 hc1) (noFlush2_4_B t hc0 hc1)]
      rw [Dat.leavesExact_idle (dat2 V c) 5 t (idleAt2_5_B t hc0 hc1) (noFlush2_5_B t hc0 hc1)]
      rw [outsAt2_B V c t h0 h1]
      unfold sout2_B_0 sout2_B_1; (try dsimp only)
      rw [PhiS2_castSucc V c t, PhiS2_pos V c _ _ h0]
      iintro ⟨⟨⟨HR, HS0, HS1⟩, Hg⟩, Ho, ⟨%d0, H0⟩, ⟨%d1, H1⟩, ⟨%d2, H2⟩, ⟨%d3, H3⟩, ⟨%d4, H4⟩, ⟨%d5, H5⟩⟩
      iapply ((runB c t hc0 hc1 (iblk2 V c 0 t) (iblk2 V c 1 t) (iblk2 V c 2 t) (iblk2 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR HS0 HS1 Hg]
      · isplitr [Hg]
        swap; · iexact Hg
        isplitl [HR]; · iexact HR
        isplitl [HS0]
        · unfold owns; iexists _; isplitr
          swap; · iexact HS0
          ipureintro; exact View.read_writes_of_cover _ _ _ _ _ (scover2_B_0 c _ _ _ _ _ _ _ _ _)
        unfold owns; iexists _; isplitr
        swap; · iexact HS1
        ipureintro; exact View.read_writes_of_cover _ _ _ _ _ (scover2_B_1 c _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine BIBase.Entails.trans ?_ (PhiA2_close c)
  iintro ⟨⟨HR, HS0, HS1⟩, Hg⟩
  isplitr [Hg]
  swap; · iexact Hg
  isplitl [HR]; · iexact HR
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Fr

end
-- ==== Proof.KI.Run.lean ====
import proofs.«423030_j12790412607644_2_alg».proof.Proof.KI.Reg0
import proofs.«423030_j12790412607644_2_alg».proof.Proof.KI.Reg1
import proofs.«423030_j12790412607644_2_alg».proof.Proof.KI.Reg2
import proofs.«423030_j12790412607644_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W9 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 1 c).Φ 0 = Pipeline.ΦA spec1 c from rfl]; unfold Pipeline.ΦA
    iintro ⟨Hp, -, Hr⟩
    iframe
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    refine BIBase.Entails.trans ?_ (hin2 (V7 m ρ) c); unfold Pipeline.ΦA
    iintro ⟨Hp, -, Hr⟩
    iframe
  hout c := by
    rw [Pipeline.ownSems0_none]; refine BIBase.Entails.trans (hout2 (V7 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- A buffer that no host stretch writes and no region changes reaches the end as launched. -/
theorem W9_keep (c : Dev nD) (r : Ref sig .tc) (h3 : r ∉ hostOps3_W) (h2 : r ∉ hostOps2_W) (h1 : r ∉ hostOps1_W) (h02 : r ∉ hostOps0_2_W) (h01 : r ∉ hostOps0_1_W)
    (h00 : r ∉ hostOps0_W) (k2 : ∀ w, Pipeline.arrRef spec2 w ≠ r)
    (k1 : W6 m ρ c (Proc.devRef .tc r) = W5 m ρ c (Proc.devRef .tc r))
    (k0 : W4 m ρ c (Proc.devRef .tc r) = W3 m ρ c (Proc.devRef .tc r)) :
    W9 m ρ c (Proc.devRef .tc r) = m ((c : Thread nD τ).loc r) :=
  (W9_of m ρ c r h3).trans <| (W8_of_ne m ρ c r k2).trans <| (W7_of m ρ c r h2).trans <| k1.trans <|
    (W5_of m ρ c r h1).trans <| k0.trans <| (W3_of m ρ c r h02).trans <| (W2_of m ρ c r h01).trans <| W1_of m ρ c r h00

theorem run_result : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v50 (by decide)),
     (h c _ (mem_uc main_arg0 (by decide))).trans (W9_keep m ρ c main_arg0 (by decide) (by decide) (by decide) (by decide) (by decide) (by decide) (by decide)
       (W6_of_ne m ρ c _ (by decide)) ((W4_arr m ρ c 0).trans (((dat0 (V3 m ρ) c).arrAt_in 0 rfl _).trans (A_eq0 (V3 m ρ) c 0)))),
     (h c _ (mem_uc main_arg1 (by decide))).trans (W9_keep m ρ c main_arg1 (by decide) (by decide) (by decide) (by decide) (by decide) (by decide) (by decide)
       (W6_of_ne m ρ c _ (by decide)) (W4_of_ne m ρ c _ (by decide))),
     (h c _ (mem_uc main_arg2 (by decide))).trans (W9_keep m ρ c main_arg2 (by decide) (by decide) (by decide) (by decide) (by decide) (by decide) (by decide)
       (W6_of_ne m ρ c _ (by decide)) (W4_of_ne m ρ c _ (by decide))),
     (h c _ (mem_uc main_arg3 (by decide))).trans (W9_keep m ρ c main_arg3 (by decide) (by decide) (by decide) (by decide) (by decide) (by decide) (by decide)
       (W6_of_ne m ρ c _ (by decide)) ((W4_arr m ρ c 1).trans (((dat0 (V3 m ρ) c).arrAt_in 1 rfl _).trans (A_eq0 (V3 m ρ) c 1)))),
     (h c _ (mem_uc main_arg4 (by decide))).trans (W9_keep m ρ c main_arg4 (by decide) (by decide) (by decide) (by decide) (by decide) (by decide) (by decide)
       (W6_of_ne m ρ c _ (by decide)) (W4_of_ne m ρ c _ (by decide))),
     (h c _ (mem_uc main_arg5 (by decide))).trans (W9_keep m ρ c main_arg5 (by decide) (by decide) (by decide) (by decide) (by decide) (by decide) (by decide)
       ((W6_arr m ρ c 3).trans (((dat1 (V5 m ρ) c).arrAt_in 3 rfl _).trans (A_eq1 (V5 m ρ) c 3))) (W4_of_ne m ρ c _ (by decide))),
     (h c _ (mem_uc main_arg6 (by decide))).trans (W9_keep m ρ c main_arg6 (by decide) (by decide) (by decide) (by decide) (by decide) (by decide) (by decide)
       (W6_of_ne m ρ c _ (by decide)) (W4_of_ne m ρ c _ (by decide)))⟩) (run_all m ρ)

end Cert.KernelIdeal.Fr

end
-- ==== Proof.LibScatterGather.lean ====
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Idealize.ShloMosaic.ScatterGather

open Idealize.ShloMosaic Idealize.ShloMosaic.ValueIdx

theorem fin_zero_ne_one {r : Nat} (h0 : 0 < r) (h1 : 1 < r) : (⟨0, h0⟩ : Fin r) ≠ ⟨1, h1⟩ :=
  fun h => Nat.zero_ne_one (congrArg Fin.val h)

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) (hN : 0 < N) :
    Host.gather d x idx (ix2 e f) = x (ix2 ⟨min (idx (ix2 e 0)).toInt.toNat (N - 1), by omega⟩ f) := by
  unfold Host.gather
  congr 1
  funext a
  apply Fin.ext
  have hb : ∀ a, a ∉ d.operandBatchingDims := by intro a; rw [hob]; exact List.not_mem_nil

  have hbd : ∀ y ∈ d.batchDims, y = 0 := by
    show ∀ y ∈ Shape.kept _ d.offsetDims, y = 0
    rw [hoff]; intro y hy; exact List.mem_singleton.1 hy
  have hod : ∀ y ∈ d.offsetDims, y = 1 := by rw [hoff]; intro y hy; exact List.mem_singleton.1 hy

  have hsk : d.sKept = [1] := by
    show Shape.kept _ (d.collapsedSliceDims ++ d.operandBatchingDims) = _; rw [hcoll, hob]; rfl
  match a with
  | ⟨0, _⟩ =>

    have hk : (0 : Fin 2) ∉ d.sKept := by
      rw [hsk, List.mem_singleton]; exact fin_zero_ne_one _ _
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl

    have hsi : ∀ c : Fin d.startIndexMap.length, d.siIdx (ix2 e f) c = ix2 e 0 := by
      intro c
      funext b
      match b with
      | ⟨0, _⟩ =>
        unfold GatherDims.siIdx
        rw [dif_neg (by rw [hivd]; exact Nat.zero_ne_one)]
        unfold GatherDims.siCoord
        apply Fin.ext
        simp only [Fin.val_cast]
        rw [hbd _ (List.getElem_mem _)]
        rfl
      | ⟨1, _⟩ =>
        unfold GatherDims.siIdx
        rw [dif_pos (by rw [hivd])]
        apply Fin.ext
        show c.val = 0
        have := c.isLt; omega
    show d.start (ix2 e f) idx 0 + d.batchCoord (ix2 e f) 0 + d.offCoord (ix2 e f) 0
      = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>

    have hk : (1 : Fin 2) ∈ d.sKept := by rw [hsk]; exact List.mem_singleton.mpr rfl
    have hm : (1 : Fin 2) ∉ d.startIndexMap := by
      rw [hsim, List.mem_singleton]; exact (fin_zero_ne_one _ _).symm
    show d.start (ix2 e f) idx 1 + d.batchCoord (ix2 e f) 1 + d.offCoord (ix2 e f) 1 = f.val
    rw [GatherDims.batchCoord_eq_zero _ _ _ (hb 1), Nat.add_zero]
    unfold GatherDims.start
    rw [dif_neg hm, Nat.zero_add]
    unfold GatherDims.offCoord
    rw [dif_pos hk, hod _ (List.getElem_mem _)]
    rfl

theorem scatter_rows_resultIdx {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f : Fin C) (p : Fin N) (q : Fin C) :
    d.resultIdx? (ix2 e f) idx = some (ix2 p q) ↔ (idx (ix2 e 0)).toInt = (p.val : ℤ) ∧ f = q := by
  have hus : ∀ y ∈ d.uScatter, y = 0 := by
    show ∀ y ∈ Shape.kept _ d.updateWindowDims, y = 0
    rw [huw]; intro y hy; exact List.mem_singleton.1 hy
  have huwm : ∀ y ∈ d.updateWindowDims, y = 1 := by rw [huw]; intro y hy; exact List.mem_singleton.1 hy
  have hsk : d.sKept = [1] := by
    show Shape.kept _ d.insertedWindowDims = _; rw [hiw]; rfl
  have hlen : d.scatterDimsToOperandDims.length = 1 := by rw [hsd]; rfl
  have hsi : ∀ c : Fin d.scatterDimsToOperandDims.length, d.siIdx (ix2 e f) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show c.val = 0
      have := c.isLt; omega
  have hs0 : d.start (ix2 e f) idx 0 = (idx (ix2 e 0)).toInt := by
    unfold ScatterDims.start
    rw [dif_pos (by rw [hsd]; exact List.mem_singleton.mpr rfl), hsi]
  have hs1 : d.start (ix2 e f) idx 1 = 0 := by
    unfold ScatterDims.start
    rw [dif_neg (by rw [hsd, List.mem_singleton]; exact (fin_zero_ne_one _ _).symm)]
  have hw0 : d.window (ix2 e f) 0 = 0 := by
    unfold ScatterDims.window
    rw [dif_neg (by rw [hsk, List.mem_singleton]; exact fin_zero_ne_one _ _)]
  have hw1 : d.window (ix2 e f) 1 = f.val := by
    unfold ScatterDims.window
    rw [dif_pos (by rw [hsk]; exact List.mem_singleton.mpr rfl), huwm _ (List.getElem_mem _)]
    rfl
  unfold ScatterDims.resultIdx?
  split
  · rename_i h
    rw [Option.some.injEq]
    constructor
    · intro hg
      have h0 := congrArg Fin.val (congrFun hg 0)
      have h1 := congrArg Fin.val (congrFun hg 1)
      have g0 := (h 0).1
      simp only [hs0, hs1, hw0, hw1] at h0 h1 g0
      change (_ : ℤ).toNat = p.val at h0
      change (_ : ℤ).toNat = q.val at h1
      refine ⟨by omega, Fin.ext (by omega)⟩
    · rintro ⟨hi, hf⟩
      funext a
      apply Fin.ext
      match a with
      | ⟨0, _⟩ =>
        show (d.start (ix2 e f) idx 0 + (d.window (ix2 e f) 0 : ℤ)).toNat = p.val
        rw [hs0, hw0, hi]; simp
      | ⟨1, _⟩ =>
        show (d.start (ix2 e f) idx 1 + (d.window (ix2 e f) 1 : ℤ)).toNat = q.val
        rw [hs1, hw1, hf]; simp
  · rename_i h
    constructor
    · intro hg; exact absurd hg (by simp)
    · rintro ⟨hi, hf⟩
      exfalso; apply h
      intro a
      match a with
      | ⟨0, _⟩ =>
        show 0 ≤ d.start (ix2 e f) idx 0 + (d.window (ix2 e f) 0 : ℤ) ∧ d.start (ix2 e f) idx 0 + (d.window (ix2 e f) 0 : ℤ) < (N : ℤ)
        rw [hs0, hw0, hi]
        have := p.isLt
        constructor <;> omega
      | ⟨1, _⟩ =>
        show 0 ≤ d.start (ix2 e f) idx 1 + (d.window (ix2 e f) 1 : ℤ) ∧ d.start (ix2 e f) idx 1 + (d.window (ix2 e f) 1 : ℤ) < (C : ℤ)
        rw [hs1, hw1]
        have := f.isLt
        constructor <;> omega

theorem scatter_vec_resultIdx {N n w : Nat} (d : ScatterDims ⟨1, ![N]⟩ ⟨2, ![n, 1]⟩ ⟨1, ![n]⟩)
    (hiw : d.insertedWindowDims = [0])
    (hsd : d.scatterDimsToOperandDims = [0]) (hivd : d.indexVectorDim = 1)
    (idx : IVec ⟨2, ![n, 1]⟩ w) (e : Fin n) (p : Fin N) :
    d.resultIdx? (ix1 e) idx = some (ix1 p) ↔ (idx (ix2 e 0)).toInt = (p.val : ℤ) := by
  have hsk : d.sKept = [] := by
    show Shape.kept _ d.insertedWindowDims = _; rw [hiw]; rfl
  have hlen : d.scatterDimsToOperandDims.length = 1 := by rw [hsd]; rfl
  have hsi : ∀ c : Fin d.scatterDimsToOperandDims.length, d.siIdx (ix1 e) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      have hX : ∀ X : Fin 1, ((ix1 e : (⟨1, ![n]⟩ : Shape).Idx) X).val = e.val := fun X => by
        have hX : X = 0 := Subsingleton.elim _ _
        subst hX; rfl
      exact hX _
    | ⟨1, _⟩ =>
      unfold ScatterDims.siIdx
      rw [dif_pos (by rw [hivd])]
      apply Fin.ext
      show c.val = 0
      have := c.isLt; omega
  have hs0 : d.start (ix1 e) idx 0 = (idx (ix2 e 0)).toInt := by
    unfold ScatterDims.start
    rw [dif_pos (by rw [hsd]; exact List.mem_singleton.mpr rfl), hsi]
  have hw0 : d.window (ix1 e) 0 = 0 := by
    unfold ScatterDims.window
    rw [dif_neg (by rw [hsk]; exact List.not_mem_nil)]
  unfold ScatterDims.resultIdx?
  split
  · rename_i h
    rw [Option.some.injEq]
    constructor
    · intro hg
      have h0 := congrArg Fin.val (congrFun hg 0)
      have g0 := (h 0).1
      simp only [hs0, hw0] at h0 g0
      change (_ : ℤ).toNat = p.val at h0
      omega
    · intro hi
      funext a
      obtain rfl : a = 0 := Subsingleton.elim _ _
      apply Fin.ext
      show (d.start (ix1 e) idx 0 + (d.window (ix1 e) 0 : ℤ)).toNat = p.val
      rw [hs0, hw0, hi]; simp
  · rename_i h
    constructor
    · intro hg; exact absurd hg (by simp)
    · intro hi
      exfalso; apply h
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi]
      have := p.isLt
      constructor <;> omega

theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

theorem scatterAdd_rows {N C n w : Nat} {φ : FTy} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (p : Fin N) (q : Fin C) :
    Host.scatterAdd (F := Ideal) d x idx upd (ix2 p q)
      = x (ix2 p q) + ∑ e ∈ Finset.univ.filter (fun e : Fin n => (idx (ix2 e 0)).toInt = (p.val : ℤ)), upd (ix2 e q) := by
  rw [scatterAdd_apply]
  congr 1
  have key : ∀ (a : Fin n) (b : Fin C),
      d.resultIdx? (ix2 a b) idx = some (ix2 p q) ↔ (idx (ix2 a 0)).toInt = (p.val : ℤ) ∧ b = q :=
    fun a b => scatter_rows_resultIdx d huw hiw hsd hivd idx a b p q
  refine Finset.sum_bij' (fun j _ => (j 0 : Fin n)) (fun e _ => ix2 e q) ?_ ?_ ?_ ?_ ?_
  · intro j hj
    obtain ⟨a, b, rfl⟩ : ∃ (a : Fin n) (b : Fin C), j = ix2 a b := ⟨j 0, j 1, eq_ix2 j⟩
    exact Finset.mem_filter.2 ⟨Finset.mem_univ _, ((key a b).1 (Finset.mem_filter.1 hj).2).1⟩
  · intro e he
    exact Finset.mem_filter.2 ⟨Finset.mem_univ _, (key e q).2 ⟨(Finset.mem_filter.1 he).2, rfl⟩⟩
  · intro j hj
    obtain ⟨a, b, rfl⟩ : ∃ (a : Fin n) (b : Fin C), j = ix2 a b := ⟨j 0, j 1, eq_ix2 j⟩
    have hq : b = q := ((key a b).1 (Finset.mem_filter.1 hj).2).2
    show ix2 a q = ix2 a b
    rw [hq]
  · intro e he; rfl
  · intro j hj
    obtain ⟨a, b, rfl⟩ : ∃ (a : Fin n) (b : Fin C), j = ix2 a b := ⟨j 0, j 1, eq_ix2 j⟩
    have hq : b = q := ((key a b).1 (Finset.mem_filter.1 hj).2).2
    show upd (ix2 a b) = upd (ix2 a q)
    rw [hq]

theorem scatterAdd_vec {N n w : Nat} {φ : FTy} (d : ScatterDims ⟨1, ![N]⟩ ⟨2, ![n, 1]⟩ ⟨1, ![n]⟩)
    (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (p : Fin N) :
    Host.scatterAdd (F := Ideal) d x idx upd (ix1 p)
      = x (ix1 p) + ∑ e ∈ Finset.univ.filter (fun e : Fin n => (idx (ix2 e 0)).toInt = (p.val : ℤ)), upd (ix1 e) := by
  rw [scatterAdd_apply]
  congr 1
  have key : ∀ a : Fin n, d.resultIdx? (ix1 a) idx = some (ix1 p) ↔ (idx (ix2 a 0)).toInt = (p.val : ℤ) :=
    fun a => scatter_vec_resultIdx d hiw hsd hivd idx a p
  refine Finset.sum_bij' (fun j _ => (j 0 : Fin n)) (fun e _ => ix1 e) ?_ ?_ ?_ ?_ ?_
  · intro j hj
    obtain ⟨a, rfl⟩ : ∃ a : Fin n, j = ix1 a := ⟨j 0, eq_ix1 j⟩
    exact Finset.mem_filter.2 ⟨Finset.mem_univ _, (key a).1 (Finset.mem_filter.1 hj).2⟩
  · intro e he
    exact Finset.mem_filter.2 ⟨Finset.mem_univ _, (key e).2 (Finset.mem_filter.1 he).2⟩
  · intro j hj
    obtain ⟨a, rfl⟩ : ∃ a : Fin n, j = ix1 a := ⟨j 0, eq_ix1 j⟩
    rfl
  · intro e he; rfl
  · intro j hj
    obtain ⟨a, rfl⟩ : ∃ a : Fin n, j = ix1 a := ⟨j 0, eq_ix1 j⟩
    rfl

end Idealize.ShloMosaic.ScatterGather
-- ==== Proof.Val.Decode.lean ====
import proofs.«423030_j12790412607644_2_alg».proof.Proof.LibScatterGather
import proofs.«423030_j12790412607644_2_alg».proof.KernelIdeal
import proofs.«423030_j12790412607644_2_alg».proof.ReferenceIdeal

noncomputable section

open scoped BigOperators

namespace Cert.Decode

open Idealize.ShloMosaic Idealize.ShloMosaic.ValueIdx Idealize.ShloMosaic.ScatterGather

theorem gather_take_ix {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  have h1 : ∀ {m : Nat} (k : Fin m), Shape.Idx.ofFin k = ix1 k := fun k => by
    funext a; match a with | ⟨0, _⟩ => rfl
  have h2 : StableHlo.Predicate.ixP e = ix2 e 0 := by
    funext a; match a with | ⟨0, _⟩ => rfl | ⟨1, _⟩ => rfl
  have h := StableHlo.Predicate.gather_take d hcoll hob hsim hivd x idx e hN
  simp only [h1, h2] at h
  exact h

section KernelIdeal
variable [Cert.KernelIdeal.Facts₀]
open Cert.KernelIdeal

theorem ker_gather_rows {α : Type} {w : Nat} (x : S100000x128.Idx → α) (idx : IVec S1700000x1 w)
    (e : Fin 1700000) (f : Fin 128) :
    Host.gather gather_S100000x128_S1700000x1_S1700000x128_1_0_n_n_0_1_1128 x idx (ix2 e f)
      = x (ix2 ⟨min (idx (ix2 e 0)).toInt.toNat (100000 - 1), by omega⟩ f) :=
  gather_rows _ rfl rfl rfl rfl rfl x idx e f (by decide)

theorem ker_scatterAdd_rows {w : Nat} {φ : FTy} (x : FVec Ideal S100000x128 φ) (idx : IVec S1700000x1 w)
    (upd : FVec Ideal S1700000x128 φ) (p : Fin 100000) (q : Fin 128) :
    Host.scatterAdd (F := Ideal) scatter_S100000x128_S1700000x1_S1700000x128_1_0_0_1 x idx upd (ix2 p q)
      = x (ix2 p q) + ∑ e ∈ Finset.univ.filter (fun e : Fin 1700000 => (idx (ix2 e 0)).toInt = (p.val : ℤ)), upd (ix2 e q) :=
  scatterAdd_rows _ rfl rfl rfl rfl x idx upd p q

end KernelIdeal

section ReferenceIdeal
variable [Cert.ReferenceIdeal.Facts₀]
open Cert.ReferenceIdeal

theorem ref_gather_rows {α : Type} {w : Nat} (x : S100000x128.Idx → α) (idx : IVec S1700000x1 w)
    (e : Fin 1700000) (f : Fin 128) :
    Host.gather gather_S100000x128_S1700000x1_S1700000x128_1_0_n_n_0_1_1128 x idx (ix2 e f)
      = x (ix2 ⟨min (idx (ix2 e 0)).toInt.toNat (100000 - 1), by omega⟩ f) :=
  gather_rows _ rfl rfl rfl rfl rfl x idx e f (by decide)

theorem ref_scatterAdd_rows {w : Nat} {φ : FTy} (x : FVec Ideal S100000x128 φ) (idx : IVec S1700000x1 w)
    (upd : FVec Ideal S1700000x128 φ) (p : Fin 100000) (q : Fin 128) :
    Host.scatterAdd (F := Ideal) scatter_S100000x128_S1700000x1_S1700000x128_1_0_0_1 x idx upd (ix2 p q)
      = x (ix2 p q) + ∑ e ∈ Finset.univ.filter (fun e : Fin 1700000 => (idx (ix2 e 0)).toInt = (p.val : ℤ)), upd (ix2 e q) :=
  scatterAdd_rows _ rfl rfl rfl rfl x idx upd p q

theorem ref_gather_take {α : Type} {w : Nat} (x : S100000.Idx → α) (idx : IVec S1700000x1 w) (e : Fin 1700000) :
    Host.gather gather_S100000_S1700000x1_S1700000_n_0_n_n_0_1_1 x idx (ix1 e)
      = x (ix1 ⟨min (idx (ix2 e 0)).toInt.toNat (100000 - 1), by omega⟩) :=
  gather_take_ix _ rfl rfl rfl rfl x idx e (by decide)

theorem ref_scatterAdd_pool_rows {w : Nat} {φ : FTy} (x : FVec Ideal S512x128 φ) (idx : IVec S100000x1 w)
    (upd : FVec Ideal S100000x128 φ) (p : Fin 512) (q : Fin 128) :
    Host.scatterAdd (F := Ideal) scatter_S512x128_S100000x1_S100000x128_1_0_0_1 x idx upd (ix2 p q)
      = x (ix2 p q) + ∑ e ∈ Finset.univ.filter (fun e : Fin 100000 => (idx (ix2 e 0)).toInt = (p.val : ℤ)), upd (ix2 e q) :=
  scatterAdd_rows _ rfl rfl rfl rfl x idx upd p q

theorem ref_scatterAdd_pool_vec {w : Nat} {φ : FTy} (x : FVec Ideal S512 φ) (idx : IVec S100000x1 w)
    (upd : FVec Ideal S100000 φ) (p : Fin 512) :
    Host.scatterAdd (F := Ideal) scatter_S512_S100000x1_S100000_n_0_0_1 x idx upd (ix1 p)
      = x (ix1 p) + ∑ e ∈ Finset.univ.filter (fun e : Fin 100000 => (idx (ix2 e 0)).toInt = (p.val : ℤ)), upd (ix1 e) :=
  scatterAdd_vec _ rfl rfl rfl x idx upd p

end ReferenceIdeal

end Cert.Decode
-- ==== Proof.Val.Algebra.lean ====
import Idealize.ShloMosaic.PureOps.Ideal
import Mathlib.Data.EReal.Operations
import Mathlib.Algebra.BigOperators.Group.Finset.Basic

noncomputable section

namespace Cert.Alg

open Idealize.ShloMosaic

theorem sum_mul_of_nonneg {ι : Type} (s : Finset ι) (a : ι → EReal) {D : EReal} (h0 : 0 ≤ D) (ht : D ≠ ⊤) :
    (∑ j ∈ s, a j) * D = ∑ j ∈ s, a j * D := by
  classical
  induction s using Finset.induction_on with
  | empty => simp
  | insert j s hj ih =>
    rw [Finset.sum_insert hj, Finset.sum_insert hj, EReal.right_distrib_of_nonneg_of_ne_top h0 ht, ih]

theorem seg_scale {ι : Type} (s : Finset ι) (a d e : ι → EReal) {D : EReal} (h0 : 0 ≤ D) (ht : D ≠ ⊤)
    (he : ∀ j ∈ s, e j = D) :
    (0 + ∑ j ∈ s, a j * d j) * D = 0 + ∑ j ∈ s, a j * (d j * e j) := by
  rw [zero_add, zero_add, sum_mul_of_nonneg s _ h0 ht]
  exact Finset.sum_congr rfl fun j hj => by rw [he j hj, mul_assoc]

theorem rsqrt_of_one_le {y : EReal} (h : 1 ≤ y) : 0 ≤ Ideal.rsqrt y ∧ Ideal.rsqrt y ≠ ⊤ := by
  induction y using EReal.rec with
  | bot => exact absurd (le_bot_iff.mp h) (by decide)
  | top =>
    have e : Ideal.rsqrt (⊤ : EReal) = 0 := rfl
    rw [e]; exact ⟨le_refl _, EReal.zero_ne_top⟩
  | coe r =>
    have hr : (1 : ℝ) ≤ r := by exact_mod_cast h
    have h1 : ¬ r < 0 := by linarith
    have h2 : r ≠ 0 := by linarith
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg h1, if_neg h2]
    rw [e]
    exact ⟨by exact_mod_cast inv_nonneg.mpr (Real.sqrt_nonneg r), EReal.coe_ne_top _⟩

theorem sum_indicator_mul {ι : Type} [Fintype ι] (P : ι → Prop) [DecidablePred P] (h : ι → EReal) :
    (∑ r : ι, (if P r then (1 : EReal) else 0) * h r) = ∑ r ∈ Finset.univ.filter P, h r := by
  rw [Finset.sum_filter]
  exact Finset.sum_congr rfl fun r _ => by split_ifs <;> simp

theorem sum_indicator {ι : Type} [Fintype ι] (P : ι → Prop) [DecidablePred P] :
    (∑ r : ι, (if P r then (1 : EReal) else 0)) = ∑ r ∈ Finset.univ.filter P, (1 : EReal) := by
  rw [Finset.sum_filter]

end Cert.Alg

end
-- ==== Proof.Val.Spec.lean ====
import proofs.«423030_j12790412607644_2_alg».proof.KernelIdeal
import Idealize.ShloMosaic.PureOps.Ideal
import Idealize.ShloMosaic.PureOps.Ideal.Laws
import Idealize.ShloMosaic.Lib.ValueIdx

noncomputable section

namespace Cert.KernelIdeal.Val

open Idealize.ShloMosaic Idealize.ShloMosaic.ValueIdx Cert.KernelIdeal

def lin (x : FVec Ideal S100000x128 .f32) (w : FVec Ideal S128x128 .f32) (p : Fin 100000) (q : Fin 128) : EReal :=
  ∑ k : Fin 128, x (ix2 p k) * w (ix2 k q)

def G0 (x : FVec Ideal S100000x128 .f32) (w : FVec Ideal S128x128 .f32) (d : FVec Ideal S100000x1 .f32) :
    FVec Ideal S100000x128 .bf16 :=
  fun i => lin x w (i 0) (i 1) * d (ix2 (i 0) (0 : Fin 1))

def hid (a : FVec Ideal S100000x128 .f32) (d : FVec Ideal S100000x1 .f32) (b : FVec Ideal S1x128 .f32) :
    FVec Ideal S100000x128 .f32 :=
  fun i => max (a i * d (ix2 (i 0) (0 : Fin 1)) + b (ix2 (0 : Fin 1) (i 1))) 0

def G1 (a : FVec Ideal S100000x128 .f32) (d : FVec Ideal S100000x1 .f32) (b : FVec Ideal S1x128 .f32)
    (w : FVec Ideal S128x128 .f32) : FVec Ideal S100000x128 .bf16 :=
  G0 (hid a d b) w d

def member (bt : IVec S100000x1 32) (r : Fin 100000) (g : Fin 512) : EReal :=
  if bt (ix2 r (0 : Fin 1)) = BitVec.ofNat 32 g.val then 1 else 0

def G2s (a : FVec Ideal S100000x128 .f32) (d : FVec Ideal S100000x1 .f32) (b : FVec Ideal S1x128 .f32)
    (bt : IVec S100000x1 32) : FVec Ideal S512x128 .f32 :=
  fun j => ∑ r : Fin 100000, member bt r (j 0) * hid a d b (ix2 r (j 1))

def G2c (bt : IVec S100000x1 32) : FVec Ideal S1x512 .f32 :=
  fun j => ∑ r : Fin 100000, member bt r (j 1)

end Cert.KernelIdeal.Val

end
-- ==== Proof.Val.HostTerms.lean ====
import proofs.«423030_j12790412607644_2_alg».proof.KernelIdeal
import proofs.«423030_j12790412607644_2_alg».proof.Proof.Gen.KernelIdeal

noncomputable section

namespace Cert.KernelIdeal.Val

open Idealize.ShloMosaic Cert.KernelIdeal
open Cert.KernelIdeal.Facts₀ Cert.KernelIdeal.Facts

variable {F : FTy → Type} [FloatOps F]

def srcVec (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

def dstVec (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

def dstB (x1 : (⟨S2x1600000, .i32⟩ : BufTy).Contents (Elt F)) : (⟨S1700000x1, .i32⟩ : BufTy).Contents (Elt F) :=
  broadcastInDim S1700000x1 ![0] bcast_S1700000_S1700000x1_0 (dstVec x1)

def srcW (x1 : (⟨S2x1600000, .i32⟩ : BufTy).Contents (Elt F)) : (⟨S1700000x1, .i32⟩ : BufTy).Contents (Elt F) :=
  broadcastInDim S1700000x1 ![0] bcast_S1700000_S1700000x1_0
    (select (cmpi .slt (srcVec x1) (broadcastInDim S1700000 ![] bcast_S_S1700000 (constantI S_ 32 0#32)))
      (addi (srcVec x1) (broadcastInDim S1700000 ![] bcast_S_S1700000 (constantI S_ 32 100000#32))) (srcVec x1))

def degVec (x1 : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (dstB x1) (broadcastInDim S1700000 ![] bcast_S_S1700000 (constant S_ .f32 0x3F800000#32))

def disVec (x1 : (⟨S2x1600000, .i32⟩ : BufTy).Contents (Elt F)) : (⟨S100000, .f32⟩ : BufTy).Contents (Elt F) :=
  select (cmpf (F := F) .ogt (degVec x1) (broadcastInDim S100000 ![] bcast_S_S100000 (constant S_ .f32 0x00000000#32)))
    (Host.rsqrt (maximumf (degVec x1) (broadcastInDim S100000 ![] bcast_S_S100000 (constant S_ .f32 0x3F800000#32))))
    (broadcastInDim S100000 ![] bcast_S_S100000 (id (constant S_ .f32 0x00000000#32)))

def disCol (x1 : (⟨S2x1600000, .i32⟩ : BufTy).Contents (Elt F)) : (⟨S100000x1, .f32⟩ : BufTy).Contents (Elt F) :=
  shapeCast _ (disVec x1) shapeCasts_S100000_S100000x1

def agg (x1 : (⟨S2x1600000, .i32⟩ : BufTy).Contents (Elt F)) (Lmat : (⟨S100000x128, .bf16⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (dstB x1)
    (extf .f32 (Host.gather gather_S100000x128_S1700000x1_S1700000x128_1_0_n_n_0_1_1128 Lmat (srcW x1)) bitsLt_bf16_f32)

def rowOf (b : (⟨S128, .f32⟩ : BufTy).Contents (Elt F)) : (⟨S1x128, .f32⟩ : BufTy).Contents (Elt F) :=
  shapeCast _ b shapeCasts_S128_S1x128
def colI (x2 : (⟨S100000, .i32⟩ : BufTy).Contents (Elt F)) : (⟨S100000x1, .i32⟩ : BufTy).Contents (Elt F) :=
  shapeCast _ x2 shapeCasts_S100000_S100000x1

def pooled (S : (⟨S512x128, .f32⟩ : BufTy).Contents (Elt F)) (C : (⟨S1x512, .f32⟩ : BufTy).Contents (Elt F)) :
    (⟨S512x128, .f32⟩ : BufTy).Contents (Elt F) :=
  Host.divf S (broadcastInDim S512x128 ![0, 1] bcast_S512x1_S512x128_0_1
    (maximumf (shapeCast _ C shapeCasts_S1x512_S512x1) (broadcastInDim S512x1 ![] bcast_S_S512x1 (constant S_ .f32 0x3F800000#32))))

end Cert.KernelIdeal.Val

end
-- ==== Proof.Val.Layer.lean ====
import proofs.«423030_j12790412607644_2_alg».proof.Proof.Val.Decode
import proofs.«423030_j12790412607644_2_alg».proof.Proof.Val.Algebra
import proofs.«423030_j12790412607644_2_alg».proof.Proof.Val.Spec
import proofs.«423030_j12790412607644_2_alg».proof.Proof.Val.HostTerms
import proofs.«423030_j12790412607644_2_alg».proof.Proof.RefRead
import Idealize.ShloMosaic.Lib.IdealHost
import Idealize.ShloMosaic.Lib.StableHlo.Predicate
import Idealize.ShloMosaic.Lib.Pipeline.Value
import Idealize.ShloMosaic.Lib.ValueIdx

noncomputable section

open scoped BigOperators

namespace Cert.Bridge

open Idealize.ShloMosaic Idealize.ShloMosaic.ValueIdx

open Cert.KernelIdeal.Val Cert.ReferenceIdeal.ReadP

abbrev Edges : Type := (⟨Cert.KernelIdeal.S2x1600000, .i32⟩ : BufTy).Contents (Elt Ideal)

theorem dstB_eq (x1 : Edges) : dstB (F := Ideal) x1 = val_main_v44 (F := Ideal) x1 := rfl

theorem srcW_eq38 (x1 : Edges) : srcW (F := Ideal) x1 = val_main_v38 (F := Ideal) x1 := rfl

theorem disVec_eq (x1 : Edges) : disVec (F := Ideal) x1 = val_main_v16 (F := Ideal) x1 := rfl

abbrev pos (idx : IVec Cert.KernelIdeal.S1700000x1 32) (e : Fin 1700000) : Fin 100000 :=
  ⟨min (idx (ix2 e (0 : Fin 1))).toInt.toNat (100000 - 1), by omega⟩

theorem disCol_apply (x1 : Edges) (r : Fin 100000) :
    disCol (F := Ideal) x1 (ix2 r (0 : Fin 1)) = disVec (F := Ideal) x1 (ix1 r) := by
  unfold disCol
  generalize disVec (F := Ideal) x1 = y
  refine shapeCast_apply y _ (ix2 r (0 : Fin 1)) (ix1 r) ?_
  rewrite [Shape.rowMajor_val_two, Shape.rowMajor_val_one]
  show r.val = r.val * 1 + 0
  omega

theorem rowOf_apply (b : FVec Ideal Cert.KernelIdeal.S128 .f32) (q : Fin 128) :
    rowOf (F := Ideal) b (ix2 (0 : Fin 1) q) = b (ix1 q) := by
  unfold rowOf
  refine shapeCast_apply b _ (ix2 (0 : Fin 1) q) (ix1 q) ?_
  rewrite [Shape.rowMajor_val_two, Shape.rowMajor_val_one]
  show q.val = 0 * 128 + q.val
  omega

theorem bcast_zero_apply {t : Shape} (dims : Fin Cert.KernelIdeal.S_.rank → Fin t.rank)
    (hb : Cert.KernelIdeal.S_.BroadcastsInDim t dims) (i : t.Idx) :
    broadcastInDim t dims hb (constant (F := Ideal) Cert.KernelIdeal.S_ .f32 0x00000000#32) i = 0 :=
  (broadcastInDim_apply dims hb _ i (fun a => a.elim0) (fun a => a.elim0)).trans Ideal.ofBits_zero_f32

theorem agg_apply (x1 : Edges) (L : FVec Ideal Cert.KernelIdeal.S100000x128 .bf16) (p : Fin 100000) (q : Fin 128) :
    agg (F := Ideal) x1 L (ix2 p q)
      = 0 + ∑ e ∈ Finset.univ.filter (fun e : Fin 1700000 => (dstB (F := Ideal) x1 (ix2 e (0 : Fin 1))).toInt = (p.val : ℤ)),
          L (ix2 (pos (srcW (F := Ideal) x1) e) q) := by
  unfold agg
  refine (Cert.Decode.ker_scatterAdd_rows _ _ _ p q).trans ?_
  refine congrArg₂ (· + ·) (bcast_zero_apply _ _ _) ?_
  refine Finset.sum_congr rfl fun e _ => ?_
  exact Cert.Decode.ker_gather_rows L (srcW (F := Ideal) x1) e q

theorem ker_at (h : FVec Ideal Cert.KernelIdeal.S100000x128 .f32) (x1 : Edges)
    (W : FVec Ideal Cert.KernelIdeal.S128x128 .f32) (b : FVec Ideal Cert.KernelIdeal.S128 .f32) (p : Fin 100000) (q : Fin 128) :
    hid (agg (F := Ideal) x1 (G0 h W (disCol (F := Ideal) x1))) (disCol (F := Ideal) x1) (rowOf (F := Ideal) b) (ix2 p q)
      = max ((0 + ∑ e ∈ Finset.univ.filter (fun e : Fin 1700000 => (dstB (F := Ideal) x1 (ix2 e (0 : Fin 1))).toInt = (p.val : ℤ)),
            lin h W (pos (srcW (F := Ideal) x1) e) q * disVec (F := Ideal) x1 (ix1 (pos (srcW (F := Ideal) x1) e)))
          * disVec (F := Ideal) x1 (ix1 p) + b (ix1 q)) 0 := by
  show max (agg (F := Ideal) x1 (G0 h W (disCol (F := Ideal) x1)) (ix2 p q) * disCol (F := Ideal) x1 (ix2 p (0 : Fin 1))
    + rowOf (F := Ideal) b (ix2 (0 : Fin 1) q)) 0 = _
  rw [disCol_apply, rowOf_apply, agg_apply]
  refine congrArg (fun z => max ((0 + z) * disVec (F := Ideal) x1 (ix1 p) + b (ix1 q)) 0) ?_
  refine Finset.sum_congr rfl fun e _ => ?_
  show lin h W (pos (srcW (F := Ideal) x1) e) q * disCol (F := Ideal) x1 (ix2 (pos (srcW (F := Ideal) x1) e) (0 : Fin 1)) = _
  rw [disCol_apply]

theorem v44_col (x1 : Edges) (e : Fin 1700000) :
    val_main_v44 (F := Ideal) x1 (ix2 e (0 : Fin 1)) = val_main_v6 (F := Ideal) x1 (ix1 e) := by
  rw [val_main_v44_apply]
  refine congrArg (val_main_v6 (F := Ideal) x1) ?_
  funext a; match a with | ⟨0, _⟩ => rfl

theorem v29_col (x1 : Edges) (e : Fin 1700000) :
    val_main_v29 (F := Ideal) x1 (ix2 e (0 : Fin 1)) = val_main_v28 (F := Ideal) x1 (ix1 e) := by
  rw [val_main_v29_apply]
  refine congrArg (val_main_v28 (F := Ideal) x1) ?_
  funext a; match a with | ⟨0, _⟩ => rfl

theorem dst_pos (x1 : Edges) (e : Fin 1700000) (p : Fin 100000)
    (he : (val_main_v44 (F := Ideal) x1 (ix2 e (0 : Fin 1))).toInt = (p.val : ℤ)) :
    pos (val_main_v29 (F := Ideal) x1) e = p := by
  rw [v44_col] at he
  apply Fin.ext
  show min (val_main_v29 (F := Ideal) x1 (ix2 e (0 : Fin 1))).toInt.toNat (100000 - 1) = p.val
  rw [v29_col, val_main_v28_apply, val_main_v25_apply, val_main_v24_apply, val_main_c_5_apply]
  have hc : IntOp.cmpi .slt (val_main_v6 (F := Ideal) x1 (ix1 e)) 0#32 = 0#1 := by
    have h0 : (0#32 : BitVec 32).toInt = 0 := by decide
    have hn : ¬ ((p.val : ℤ) < 0) := by omega
    unfold IntOp.cmpi
    simp only [BitVec.slt, he, h0, hn, decide_false]
    rfl
  rw [hc, select_zero, he]
  have := p.isLt
  omega

theorem v47_at (b : FVec Ideal Cert.KernelIdeal.S128 .f32) (p : Fin 100000) (q : Fin 128) :
    val_main_v47 (F := Ideal) b (ix2 p q) = b (ix1 q) := by
  rw [val_main_v47_apply, val_main_v46_apply]
  refine congrArg b ?_
  funext a; match a with | ⟨0, _⟩ => rfl

theorem call1_at (i : Cert.KernelIdeal.S100000x128.Idx) : val_main_call1_v0 (F := Ideal) i = 0 := by
  rw [val_main_call1_v0_apply, val_main_call1_cst_apply]
  exact Ideal.ofBits_zero_f32

theorem v43_at (i : Cert.KernelIdeal.S100000x128.Idx) : val_main_v43 (F := Ideal) i = 0 := by
  rw [val_main_v43_apply, val_main_cst_9_apply]
  exact Ideal.ofBits_zero_f32

theorem v32_at (h : FVec Ideal Cert.KernelIdeal.S100000x128 .f32) (W : FVec Ideal Cert.KernelIdeal.S128x128 .f32)
    (r : Fin 100000) (q : Fin 128) : val_main_v32 (F := Ideal) h W (ix2 r q) = lin h W r q := by
  rw [val_main_v32_apply]
  unfold lin
  refine Finset.sum_congr rfl fun k _ => ?_
  have el : lidx_main_v32 (ix2 r q) k = ix2 r k := by
    funext a; match a with | ⟨0, _⟩ => rfl | ⟨1, _⟩ => rfl
  have er : ridx_main_v32 (ix2 r q) k = ix2 k q := by
    funext a; match a with | ⟨0, _⟩ => rfl | ⟨1, _⟩ => rfl
  rw [el, er]

theorem v23_at (x1 : Edges) (e : Fin 1700000) :
    val_main_v23 (F := Ideal) x1 (ix1 e) = val_main_v16 (F := Ideal) x1 (ix1 (pos (val_main_v22 (F := Ideal) x1) e)) := by
  unfold val_main_v23
  exact Cert.Decode.ref_gather_take _ _ e

theorem v30_at (x1 : Edges) (e : Fin 1700000) :
    val_main_v30 (F := Ideal) x1 (ix1 e) = val_main_v16 (F := Ideal) x1 (ix1 (pos (val_main_v29 (F := Ideal) x1) e)) := by
  unfold val_main_v30
  exact Cert.Decode.ref_gather_take _ _ e

theorem v41_at (x1 : Edges) (e : Fin 1700000) (q : Fin 128) :
    val_main_v41 (F := Ideal) x1 (ix2 e q)
      = val_main_v16 (F := Ideal) x1 (ix1 (pos (val_main_v22 (F := Ideal) x1) e))
        * val_main_v16 (F := Ideal) x1 (ix1 (pos (val_main_v29 (F := Ideal) x1) e)) := by
  rw [val_main_v41_apply, val_main_v40_apply]
  have ei : idx_main_v40 (idx_main_v41 (ix2 e q)) = ix1 e := by
    funext a; match a with | ⟨0, _⟩ => rfl
  rw [ei, val_main_v31_apply]
  exact congrArg₂ (· * ·) (v23_at x1 e) (v30_at x1 e)

theorem v39_at (h : FVec Ideal Cert.KernelIdeal.S100000x128 .f32) (x1 : Edges) (W : FVec Ideal Cert.KernelIdeal.S128x128 .f32)
    (e : Fin 1700000) (q : Fin 128) :
    val_main_v39 (F := Ideal) h x1 W (ix2 e q) = lin h W (pos (val_main_v38 (F := Ideal) x1) e) q := by
  unfold val_main_v39
  exact (Cert.Decode.ref_gather_rows _ _ e q).trans (v32_at h W _ q)

theorem v42_at (h : FVec Ideal Cert.KernelIdeal.S100000x128 .f32) (x1 : Edges) (W : FVec Ideal Cert.KernelIdeal.S128x128 .f32)
    (e : Fin 1700000) (q : Fin 128) :
    val_main_v42 (F := Ideal) h x1 W (ix2 e q)
      = lin h W (pos (val_main_v38 (F := Ideal) x1) e) q
        * (val_main_v16 (F := Ideal) x1 (ix1 (pos (val_main_v22 (F := Ideal) x1) e))
          * val_main_v16 (F := Ideal) x1 (ix1 (pos (val_main_v29 (F := Ideal) x1) e))) := by
  rw [val_main_v42_apply]
  exact congrArg₂ (· * ·) (v39_at h x1 W e q) (v41_at x1 e q)

theorem v45_at (h : FVec Ideal Cert.KernelIdeal.S100000x128 .f32) (x1 : Edges)
    (W : FVec Ideal Cert.KernelIdeal.S128x128 .f32) (p : Fin 100000) (q : Fin 128) :
    val_main_v45 (F := Ideal) h x1 W (ix2 p q)
      = 0 + ∑ e ∈ Finset.univ.filter (fun e : Fin 1700000 => (val_main_v44 (F := Ideal) x1 (ix2 e (0 : Fin 1))).toInt = (p.val : ℤ)),
          lin h W (pos (val_main_v38 (F := Ideal) x1) e) q
            * (val_main_v16 (F := Ideal) x1 (ix1 (pos (val_main_v22 (F := Ideal) x1) e))
              * val_main_v16 (F := Ideal) x1 (ix1 (pos (val_main_v29 (F := Ideal) x1) e))) := by
  unfold val_main_v45
  refine (Cert.Decode.ref_scatterAdd_rows _ _ _ p q).trans ?_
  refine congrArg₂ (· + ·) (v43_at _) ?_
  exact Finset.sum_congr rfl fun e _ => v42_at h x1 W e q

theorem ref_at (h : FVec Ideal Cert.KernelIdeal.S100000x128 .f32) (x1 : Edges)
    (W : FVec Ideal Cert.KernelIdeal.S128x128 .f32) (b : FVec Ideal Cert.KernelIdeal.S128 .f32) (p : Fin 100000) (q : Fin 128) :
    val_main_v49 (F := Ideal) h x1 W b (ix2 p q)
      = max ((0 + ∑ e ∈ Finset.univ.filter (fun e : Fin 1700000 => (val_main_v44 (F := Ideal) x1 (ix2 e (0 : Fin 1))).toInt = (p.val : ℤ)),
            lin h W (pos (val_main_v38 (F := Ideal) x1) e) q
              * (val_main_v16 (F := Ideal) x1 (ix1 (pos (val_main_v22 (F := Ideal) x1) e))
                * val_main_v16 (F := Ideal) x1 (ix1 (pos (val_main_v29 (F := Ideal) x1) e))))
          + b (ix1 q)) 0 := by
  rw [val_main_v49_apply, val_main_v48_apply, v47_at, call1_at, v45_at]
  rfl

theorem dis_bounds (x1 : Edges) (p : Fin 100000) :
    0 ≤ (val_main_v16 (F := Ideal) x1 (ix1 p) : EReal) ∧ (val_main_v16 (F := Ideal) x1 (ix1 p) : EReal) ≠ ⊤ := by
  rw [val_main_v16_apply]
  unfold Scalar.select
  split
  · rw [val_main_v15_apply, val_main_v14_apply, val_main_v13_apply, val_main_cst_2_apply]
    have h1 : FloatOps.ofBits (F := Ideal) .f32 0x3F800000#32 = (1 : EReal) := Ideal.ofBits_one_f32
    rw [h1]
    generalize val_main_v10 (F := Ideal) x1 (ix1 p) = d
    show 0 ≤ Ideal.rsqrt (max d (1 : EReal)) ∧ Ideal.rsqrt (max d (1 : EReal)) ≠ ⊤
    exact Cert.Alg.rsqrt_of_one_le (le_max_right d 1)
  · rw [val_main_call0_v1_apply, val_main_call0_v0_apply, val_main_cst_3_apply]
    have h0 : FloatOps.ofBits (F := Ideal) .f32 0x00000000#32 = (0 : EReal) := Ideal.ofBits_zero_f32
    rw [h0]
    exact ⟨le_refl _, EReal.zero_ne_top⟩

theorem v38_eq_v22 (x1 : Edges) : val_main_v38 (F := Ideal) x1 = val_main_v22 (F := Ideal) x1 := rfl

theorem layer (h : FVec Ideal Cert.KernelIdeal.S100000x128 .f32) (x1 : Edges)
    (W : FVec Ideal Cert.KernelIdeal.S128x128 .f32) (b : FVec Ideal Cert.KernelIdeal.S128 .f32) :
    hid (agg (F := Ideal) x1 (G0 h W (disCol (F := Ideal) x1))) (disCol (F := Ideal) x1) (rowOf (F := Ideal) b)
      = val_main_v49 (F := Ideal) h x1 W b := by
  funext i
  obtain ⟨p, q, rfl⟩ : ∃ (p : Fin 100000) (q : Fin 128), i = ix2 p q := ⟨i 0, i 1, eq_ix2 i⟩
  rw [ker_at, ref_at, dstB_eq x1, disVec_eq x1, srcW_eq38 x1, v38_eq_v22 x1]
  refine congrArg (fun z => max (z + b (ix1 q)) 0) ?_
  have hb := dis_bounds x1 p
  exact Cert.Alg.seg_scale _ (fun e => lin h W (pos (val_main_v22 (F := Ideal) x1) e) q)
    (fun e => val_main_v16 (F := Ideal) x1 (ix1 (pos (val_main_v22 (F := Ideal) x1) e)))
    (fun e => val_main_v16 (F := Ideal) x1 (ix1 (pos (val_main_v29 (F := Ideal) x1) e))) hb.1 hb.2
    (fun e he => by rw [dst_pos x1 e p (Finset.mem_filter.1 he).2])

end Cert.Bridge

end
-- ==== Proof.Val.Readout.lean ====
import proofs.«423030_j12790412607644_2_alg».proof.Proof.Val.Decode
import proofs.«423030_j12790412607644_2_alg».proof.Proof.Val.Algebra
import proofs.«423030_j12790412607644_2_alg».proof.Proof.Val.Spec
import proofs.«423030_j12790412607644_2_alg».proof.Proof.Val.HostTerms
import proofs.«423030_j12790412607644_2_alg».proof.Proof.RefRead
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx

theorem word_toInt_eq_iff (w : BitVec 32) (g : Nat) (hg : g < 512) : w.toInt = (g : ℤ) ↔ w = BitVec.ofNat 32 g := by
  have hw : w.toNat < 2 ^ 32 := w.isLt
  have hg' : g % 2 ^ 32 = g := Nat.mod_eq_of_lt (by omega)
  constructor
  · intro h
    apply BitVec.eq_of_toNat_eq
    rw [BitVec.toNat_ofNat, hg']
    rw [BitVec.toInt_eq_toNat_cond] at h
    split at h <;> omega
  · intro h
    subst h
    rw [BitVec.toInt_eq_toNat_cond, BitVec.toNat_ofNat, hg']
    split <;> omega

section
variable (x2 : (⟨Cert.KernelIdeal.S100000, .i32⟩ : BufTy).Contents (Elt Ideal))

theorem colI_apply (r : Fin 100000) :
    Cert.KernelIdeal.Val.colI (F := Ideal) x2 (ix2 r (0 : Fin 1)) = x2 (ix1 r) := by
  unfold Cert.KernelIdeal.Val.colI
  refine shapeCast_apply x2 _ (ix2 r (0 : Fin 1)) (ix1 r) ?_
  rw [Shape.rowMajor_val_one, Shape.rowMajor_val_two]
  show r.val = r.val * 1 + 0
  omega

theorem v69_apply (r : Fin 100000) :
    Cert.ReferenceIdeal.ReadP.val_main_v69 (F := Ideal) x2 (ix2 r (0 : Fin 1)) = x2 (ix1 r) := by
  rw [Cert.ReferenceIdeal.ReadP.val_main_v69_apply]
  exact congrArg x2 (funext fun a => by match a with | ⟨0, _⟩ => rfl)

theorem v73_apply (r : Fin 100000) :
    Cert.ReferenceIdeal.ReadP.val_main_v73 (F := Ideal) x2 (ix2 r (0 : Fin 1)) = x2 (ix1 r) := by
  rw [Cert.ReferenceIdeal.ReadP.val_main_v73_apply]
  exact congrArg x2 (funext fun a => by match a with | ⟨0, _⟩ => rfl)

def nodesOf (g : Fin 512) : Finset (Fin 100000) :=
  Finset.univ.filter (fun r : Fin 100000 => x2 (ix1 r) = BitVec.ofNat 32 g.val)

variable (A : FVec Ideal Cert.KernelIdeal.S100000x128 .f32) (d : FVec Ideal Cert.KernelIdeal.S100000x1 .f32)
  (b : FVec Ideal Cert.KernelIdeal.S1x128 .f32)

theorem num_ker (g : Fin 512) (q : Fin 128) :
    Cert.KernelIdeal.Val.G2s A d b (Cert.KernelIdeal.Val.colI x2) (ix2 g q)
      = ∑ r ∈ nodesOf x2 g, Cert.KernelIdeal.Val.hid A d b (ix2 r q) := by
  show (∑ r : Fin 100000, (if Cert.KernelIdeal.Val.colI x2 (ix2 r (0 : Fin 1)) = BitVec.ofNat 32 g.val then (1 : EReal) else 0)
      * Cert.KernelIdeal.Val.hid A d b (ix2 r q)) = _
  rw [Cert.Alg.sum_indicator_mul]
  unfold nodesOf
  exact Finset.sum_congr (Finset.filter_congr fun r _ => by rw [colI_apply]) fun _ _ => rfl

theorem num_ref (g : Fin 512) (q : Fin 128) :
    Host.scatterAdd (F := Ideal) Cert.ReferenceIdeal.scatter_S512x128_S100000x1_S100000x128_1_0_0_1
        (Cert.ReferenceIdeal.ReadP.val_main_v68 (F := Ideal)) (Cert.ReferenceIdeal.ReadP.val_main_v69 (F := Ideal) x2)
        (Cert.KernelIdeal.Val.hid A d b) (ix2 g q)
      = ∑ r ∈ nodesOf x2 g, Cert.KernelIdeal.Val.hid A d b (ix2 r q) := by
  rw [Cert.Decode.ref_scatterAdd_pool_rows, Cert.ReferenceIdeal.ReadP.val_main_v68_apply,
    Cert.ReferenceIdeal.ReadP.val_main_cst_13_apply]
  show Ideal.ofBits .f32 0x00000000#32 + _ = _
  rw [Ideal.ofBits_zero_f32, zero_add]
  unfold nodesOf
  exact Finset.sum_congr (Finset.filter_congr fun r _ => by rw [v69_apply, word_toInt_eq_iff _ g.val g.isLt]) fun _ _ => rfl

theorem cnt_ker (g : Fin 512) :
    Cert.KernelIdeal.Val.G2c (Cert.KernelIdeal.Val.colI x2) (ix2 (0 : Fin 1) g) = ∑ r ∈ nodesOf x2 g, (1 : EReal) := by
  show (∑ r : Fin 100000, (if Cert.KernelIdeal.Val.colI x2 (ix2 r (0 : Fin 1)) = BitVec.ofNat 32 g.val then (1 : EReal) else 0)) = _
  rw [Cert.Alg.sum_indicator]
  unfold nodesOf
  exact Finset.sum_congr (Finset.filter_congr fun r _ => by rw [colI_apply]) fun _ _ => rfl

theorem cnt_ref (g : Fin 512) :
    Cert.ReferenceIdeal.ReadP.val_main_v74 (F := Ideal) x2 (ix1 g) = ∑ r ∈ nodesOf x2 g, (1 : EReal) := by
  unfold Cert.ReferenceIdeal.ReadP.val_main_v74
  rw [Cert.Decode.ref_scatterAdd_pool_vec, Cert.ReferenceIdeal.ReadP.val_main_v72_apply,
    Cert.ReferenceIdeal.ReadP.val_main_cst_15_apply]
  show Ideal.ofBits .f32 0x00000000#32 + _ = _
  rw [Ideal.ofBits_zero_f32, zero_add]
  unfold nodesOf
  refine Finset.sum_congr (Finset.filter_congr fun r _ => by rw [v73_apply, word_toInt_eq_iff _ g.val g.isLt]) fun r _ => ?_
  rw [Cert.ReferenceIdeal.ReadP.val_main_v71_apply, Cert.ReferenceIdeal.ReadP.val_main_cst_14_apply]
  exact Ideal.ofBits_one_f32

theorem den_ref (g : Fin 512) (q : Fin 128) :
    Cert.ReferenceIdeal.ReadP.val_main_v78 (F := Ideal) x2 (ix2 g q) = max (∑ r ∈ nodesOf x2 g, (1 : EReal)) 1 := by
  rw [Cert.ReferenceIdeal.ReadP.val_main_v78_apply, Cert.ReferenceIdeal.ReadP.val_main_v77_apply,
    Cert.ReferenceIdeal.ReadP.val_main_v76_apply]
  have e : Cert.ReferenceIdeal.ReadP.idx_main_v77 (Cert.ReferenceIdeal.ReadP.idx_main_v78 (ix2 g q)) = ix1 g :=
    funext fun a => by match a with | ⟨0, _⟩ => rfl
  rw [e, cnt_ref, Cert.ReferenceIdeal.ReadP.val_main_v75_apply, Cert.ReferenceIdeal.ReadP.val_main_cst_16_apply]
  show max _ (Ideal.ofBits .f32 0x3F800000#32) = _
  rw [Ideal.ofBits_one_f32]

theorem den_ker (C : FVec Ideal Cert.KernelIdeal.S1x512 .f32)
    (h1 : Cert.KernelIdeal.S512x1.BroadcastsInDim Cert.KernelIdeal.S512x128 (![0, 1] : Fin 2 → Fin Cert.KernelIdeal.S512x128.rank))
    (h2 : Cert.KernelIdeal.S1x512.ShapeCasts Cert.KernelIdeal.S512x1)
    (h3 : Cert.KernelIdeal.S_.BroadcastsInDim Cert.KernelIdeal.S512x1 (![] : Fin 0 → Fin Cert.KernelIdeal.S512x1.rank))
    (g : Fin 512) (q : Fin 128) :
    broadcastInDim Cert.KernelIdeal.S512x128 ![0, 1] h1
        (maximumf (shapeCast Cert.KernelIdeal.S512x1 C h2)
          (broadcastInDim Cert.KernelIdeal.S512x1 ![] h3 (constant (F := Ideal) Cert.KernelIdeal.S_ .f32 0x3F800000#32))) (ix2 g q)
      = max (C (ix2 (0 : Fin 1) g)) 1 := by
  refine (broadcastInDim_apply _ h1 _ (ix2 g q) (ix2 g (0 : Fin 1)) (fun a => ?_)).trans ?_
  · match a with
    | ⟨0, _⟩ => show g.val = if (512 : Nat) = 1 then 0 else g.val; rw [if_neg (by decide)]
    | ⟨1, _⟩ => show (0 : Nat) = if (1 : Nat) = 1 then 0 else q.val; rw [if_pos rfl]
  show max (shapeCast Cert.KernelIdeal.S512x1 C h2 (ix2 g (0 : Fin 1)))
      (broadcastInDim Cert.KernelIdeal.S512x1 ![] h3 (constant (F := Ideal) Cert.KernelIdeal.S_ .f32 0x3F800000#32) (ix2 g (0 : Fin 1))) = _
  rw [shapeCast_apply C h2 (ix2 g (0 : Fin 1)) (ix2 (0 : Fin 1) g) (by
      rw [Shape.rowMajor_val_two, Shape.rowMajor_val_two]
      show 0 * 512 + g.val = g.val * 1 + 0
      omega),
    broadcastInDim_apply _ h3 _ (ix2 g (0 : Fin 1)) (fun a => a.elim0) (fun a => a.elim0), constant_apply, Ideal.ofBits_one_f32]

end

theorem readout (A : FVec Ideal Cert.KernelIdeal.S100000x128 .f32) (d : FVec Ideal Cert.KernelIdeal.S100000x1 .f32)
    (b : FVec Ideal Cert.KernelIdeal.S1x128 .f32) (x2 : (⟨Cert.KernelIdeal.S100000, .i32⟩ : BufTy).Contents (Elt Ideal)) :
    Cert.KernelIdeal.Val.pooled (F := Ideal) (Cert.KernelIdeal.Val.G2s A d b (Cert.KernelIdeal.Val.colI x2))
        (Cert.KernelIdeal.Val.G2c (Cert.KernelIdeal.Val.colI x2))
      = Host.divf (F := Ideal)
          (Host.scatterAdd (F := Ideal) Cert.ReferenceIdeal.scatter_S512x128_S100000x1_S100000x128_1_0_0_1
            (Cert.ReferenceIdeal.ReadP.val_main_v68 (F := Ideal)) (Cert.ReferenceIdeal.ReadP.val_main_v69 (F := Ideal) x2)
            (Cert.KernelIdeal.Val.hid A d b))
          (Cert.ReferenceIdeal.ReadP.val_main_v78 (F := Ideal) x2) := by
  unfold Cert.KernelIdeal.Val.pooled
  refine congrArg₂ (Host.divf (F := Ideal)) (funext fun i => ?_) (funext fun i => ?_)
  · obtain ⟨g, q, rfl⟩ : ∃ (g : Fin 512) (q : Fin 128), i = ix2 g q := ⟨i 0, i 1, eq_ix2 i⟩
    rw [num_ker, num_ref]
  · obtain ⟨g, q, rfl⟩ : ∃ (g : Fin 512) (q : Fin 128), i = ix2 g q := ⟨i 0, i 1, eq_ix2 i⟩
    rw [den_ker, den_ref, cnt_ker]

end Cert.Bridge

end
-- ==== Proof.Val.HostK.lean ====
import proofs.«423030_j12790412607644_2_alg».proof.Proof.KI.Run
import proofs.«423030_j12790412607644_2_alg».proof.Proof.Val.HostTerms
import Idealize.ShloMosaic.Lib.StableHlo.Run

set_option maxRecDepth 16384

noncomputable section

namespace Cert.KernelIdeal.Val

open Idealize.ShloMosaic Idealize.ShloMosaic.TcCoe
open Cert.KernelIdeal Cert.KernelIdeal.Gen

variable {F : FTy → Type} [FloatOps F]

variable (m : (ℓ : Loc nD τ sig) → Buf (Elt F) ℓ) (ρ : Dev nD → PrngReg)

theorem W3_keep (c : Dev nD) (r : Ref sig .tc) (h0 : r ∉ hostOps0_W) (h1 : r ∉ hostOps0_1_W) (h2 : r ∉ hostOps0_2_W) :
    Fr.W3 m ρ c (Proc.devRef .tc r) = m ((c : Thread nD τ).loc r) :=
  (Fr.W3_of m ρ c _ h2).trans
    ((Fr.W2_of m ρ c _ h1).trans (Fr.W1_of m ρ c _ h0))

theorem W1_v5 (c : Dev nD) : Fr.W1 m ρ c (Proc.devRef .tc main_v5) = srcVec (m ((c : Thread nD τ).loc main_arg1)) := by
  show StableHlo.after hostOps0 (Fr.W0 m ρ c) (Proc.devRef .tc main_v5) = _
  after_results
  rfl

theorem W1_v6 (c : Dev nD) : Fr.W1 m ρ c (Proc.devRef .tc main_v6) = dstVec (m ((c : Thread nD τ).loc main_arg1)) := by
  show StableHlo.after hostOps0 (Fr.W0 m ρ c) (Proc.devRef .tc main_v6) = _
  after_results
  rfl

theorem W3_v5 (c : Dev nD) : Fr.W3 m ρ c (Proc.devRef .tc main_v5) = srcVec (m ((c : Thread nD τ).loc main_arg1)) :=
  (Fr.W3_of m ρ c _ (by decide)).trans
    ((Fr.W2_of m ρ c _ (by decide)).trans (W1_v5 m ρ c))
theorem W3_v6 (c : Dev nD) : Fr.W3 m ρ c (Proc.devRef .tc main_v6) = dstVec (m ((c : Thread nD τ).loc main_arg1)) :=
  (Fr.W3_of m ρ c _ (by decide)).trans
    ((Fr.W2_of m ρ c _ (by decide)).trans (W1_v6 m ρ c))

theorem W3_v17 (c : Dev nD) : Fr.W3 m ρ c (Proc.devRef .tc main_v17) = disCol (m ((c : Thread nD τ).loc main_arg1)) := by
  show StableHlo.after hostOps0_2 (StableHlo.after hostOps0_1 (StableHlo.after hostOps0 (Fr.W0 m ρ c))) (Proc.devRef .tc main_v17) = _
  after_results_simp
  rfl

theorem W3_arg0 (c : Dev nD) : Fr.W3 m ρ c (Proc.devRef .tc main_arg0) = m ((c : Thread nD τ).loc main_arg0) :=
  W3_keep m ρ c main_arg0 (by decide) (by decide) (by decide)
theorem W3_arg3 (c : Dev nD) : Fr.W3 m ρ c (Proc.devRef .tc main_arg3) = m ((c : Thread nD τ).loc main_arg3) :=
  W3_keep m ρ c main_arg3 (by decide) (by decide) (by decide)

theorem W4_v17 (c : Dev nD) : Fr.W4 m ρ c (Proc.devRef .tc main_v17) = disCol (m ((c : Thread nD τ).loc main_arg1)) :=
  ((Fr.W4_arr m ρ c 2).trans (((Fr.dat0 (Fr.V3 m ρ) c).arrAt_in 2 rfl _).trans (Fr.A_eq0 (Fr.V3 m ρ) c 2))).trans (W3_v17 m ρ c)

theorem W4_v5 (c : Dev nD) : Fr.W4 m ρ c (Proc.devRef .tc main_v5) = srcVec (m ((c : Thread nD τ).loc main_arg1)) :=
  (Fr.W4_of_ne m ρ c main_v5 (by decide)).trans (W3_v5 m ρ c)
theorem W4_v6 (c : Dev nD) : Fr.W4 m ρ c (Proc.devRef .tc main_v6) = dstVec (m ((c : Thread nD τ).loc main_arg1)) :=
  (Fr.W4_of_ne m ρ c main_v6 (by decide)).trans (W3_v6 m ρ c)

theorem W4_keep (c : Dev nD) (r : Ref sig .tc) (hw : ∀ w, Pipeline.arrRef spec0 w ≠ r) (h0 : r ∉ hostOps0_W) (h1 : r ∉ hostOps0_1_W) (h2 : r ∉ hostOps0_2_W) :
    Fr.W4 m ρ c (Proc.devRef .tc r) = m ((c : Thread nD τ).loc r) :=
  (Fr.W4_of_ne m ρ c r hw).trans (W3_keep m ρ c r h0 h1 h2)

theorem W5_v29 (c : Dev nD) : Fr.W5 m ρ c (Proc.devRef .tc main_v29)
    = agg (m ((c : Thread nD τ).loc main_arg1)) (Fr.W4 m ρ c (Proc.devRef .tc main_v18)) := by
  show StableHlo.after hostOps1 (Fr.W4 m ρ c) (Proc.devRef .tc main_v29) = _
  after_results
  rw [W4_v5 m ρ c, W4_v6 m ρ c]
  rfl

theorem W5_v17 (c : Dev nD) : Fr.W5 m ρ c (Proc.devRef .tc main_v17) = disCol (m ((c : Thread nD τ).loc main_arg1)) :=
  (Fr.W5_of m ρ c _ (by decide)).trans (W4_v17 m ρ c)

theorem W5_v30 (c : Dev nD) : Fr.W5 m ρ c (Proc.devRef .tc main_v30)
    = rowOf (m ((c : Thread nD τ).loc main_arg4)) := by
  show StableHlo.after hostOps1 (Fr.W4 m ρ c) (Proc.devRef .tc main_v30) = _
  after_results
  rw [W4_keep m ρ c main_arg4 (by decide) (by decide) (by decide) (by decide)]
  rfl

theorem W5_arg5 (c : Dev nD) : Fr.W5 m ρ c (Proc.devRef .tc main_arg5) = m ((c : Thread nD τ).loc main_arg5) :=
  (Fr.W5_of m ρ c _ (by decide)).trans
    (W4_keep m ρ c main_arg5 (by decide) (by decide) (by decide) (by decide))

theorem W6_v5 (c : Dev nD) : Fr.W6 m ρ c (Proc.devRef .tc main_v5) = srcVec (m ((c : Thread nD τ).loc main_arg1)) :=
  (Fr.W6_of_ne m ρ c main_v5 (by decide)).trans
    ((Fr.W5_of m ρ c _ (by decide)).trans (W4_v5 m ρ c))
theorem W6_v6 (c : Dev nD) : Fr.W6 m ρ c (Proc.devRef .tc main_v6) = dstVec (m ((c : Thread nD τ).loc main_arg1)) :=
  (Fr.W6_of_ne m ρ c main_v6 (by decide)).trans
    ((Fr.W5_of m ρ c _ (by decide)).trans (W4_v6 m ρ c))

theorem W6_v17 (c : Dev nD) : Fr.W6 m ρ c (Proc.devRef .tc main_v17) = disCol (m ((c : Thread nD τ).loc main_arg1)) :=
  ((Fr.W6_arr m ρ c 1).trans (((Fr.dat1 (Fr.V5 m ρ) c).arrAt_in 1 rfl _).trans (Fr.A_eq1 (Fr.V5 m ρ) c 1))).trans (W5_v17 m ρ c)

theorem W6_keep (c : Dev nD) (r : Ref sig .tc) (hw0 : ∀ w, Pipeline.arrRef spec0 w ≠ r) (hw1 : ∀ w, Pipeline.arrRef spec1 w ≠ r)
    (h0 : r ∉ hostOps0_W) (h1 : r ∉ hostOps0_1_W) (h2 : r ∉ hostOps0_2_W) (h3 : r ∉ hostOps1_W) :
    Fr.W6 m ρ c (Proc.devRef .tc r) = m ((c : Thread nD τ).loc r) :=
  (Fr.W6_of_ne m ρ c r hw1).trans
    ((Fr.W5_of m ρ c _ h3).trans (W4_keep m ρ c r hw0 h0 h1 h2))

theorem W7_v42 (c : Dev nD) : Fr.W7 m ρ c (Proc.devRef .tc main_v42)
    = agg (m ((c : Thread nD τ).loc main_arg1)) (Fr.W6 m ρ c (Proc.devRef .tc main_v31)) := by
  show StableHlo.after hostOps2 (Fr.W6 m ρ c) (Proc.devRef .tc main_v42) = _
  after_results
  rw [W6_v5 m ρ c, W6_v6 m ρ c]
  rfl

theorem W7_v17 (c : Dev nD) : Fr.W7 m ρ c (Proc.devRef .tc main_v17) = disCol (m ((c : Thread nD τ).loc main_arg1)) :=
  (Fr.W7_of m ρ c _ (by decide)).trans (W6_v17 m ρ c)

theorem W7_v43 (c : Dev nD) : Fr.W7 m ρ c (Proc.devRef .tc main_v43)
    = rowOf (m ((c : Thread nD τ).loc main_arg6)) := by
  show StableHlo.after hostOps2 (Fr.W6 m ρ c) (Proc.devRef .tc main_v43) = _
  after_results
  rw [W6_keep m ρ c main_arg6 (by decide) (by decide) (by decide) (by decide) (by decide) (by decide)]
  rfl

theorem W7_v44 (c : Dev nD) : Fr.W7 m ρ c (Proc.devRef .tc main_v44)
    = colI (m ((c : Thread nD τ).loc main_arg2)) := by
  show StableHlo.after hostOps2 (Fr.W6 m ρ c) (Proc.devRef .tc main_v44) = _
  after_results
  rw [W6_keep m ρ c main_arg2 (by decide) (by decide) (by decide) (by decide) (by decide) (by decide)]
  rfl

theorem W9_v50 (c : Dev nD) : Fr.W9 m ρ c (Proc.devRef .tc main_v50)
    = pooled (Fr.W8 m ρ c (Proc.devRef .tc main_v45_0)) (Fr.W8 m ρ c (Proc.devRef .tc main_v45_1)) := by
  show StableHlo.after hostOps3 (Fr.W8 m ρ c) (Proc.devRef .tc main_v50) = _
  after_results
  rfl

end Cert.KernelIdeal.Val

end
-- ==== Proof.Val.Reg01Val.lean ====
import proofs.«423030_j12790412607644_2_alg».proof.Proof.KI.Reg0
import proofs.«423030_j12790412607644_2_alg».proof.Proof.KI.Reg1
import proofs.«423030_j12790412607644_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Cert.KernelIdeal Cert.KernelIdeal.Gen
open Idealize.ShloMosaic.Pipeline (Dat)

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem tile_matmul_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

theorem col_bcast_apply (d : FVec Ideal S5000x1 .f32) (p : Fin 5000) (q : Fin 128) :
    broadcastTo S5000x128 d broadcasts_S5000x1_S5000x128 (ix2 p q) = d (ix2 p (0 : Fin 1)) := by
  refine broadcastTo_apply d _ (ix2 p q) (ix2 p (0 : Fin 1)) (fun a => ?_)
  match a with
  | ⟨0, _⟩ => show p.val = if (5000 : Nat) = 1 then 0 else p.val; rw [if_neg (by decide)]
  | ⟨1, _⟩ => show (0 : Nat) = if (1 : Nat) = 1 then 0 else q.val; rw [if_pos rfl]

def row (r : Nat) (hr : r < 20) (p : Fin 5000) : Fin 100000 := ⟨r * 5000 + p.val, by have := p.isLt; omega⟩

theorem hz : (![0, 0] : Fin 2 → Nat) = fun _ => 0 := funext fun a => by fin_cases a <;> rfl

variable (V : (c : Dev nD) → (b : Ref sig .tc) → Buf (Elt Ideal) ((c : Thread nD τ).loc b))

theorem k0_pay1_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  show (matmul dot_S5000x128_S128x128_S5000x128_1_0_0_1_n_n none _ _ (constant (F := Ideal) S5000x128 .f32 0x00000000#32) (ix2 p q))
      * (broadcastTo S5000x128 (shapeCast S5000x1 x2 shapeCasts_S5000x1_S5000x1) broadcasts_S5000x1_S5000x128 (ix2 p q)) = _
  rw [tile_matmul_apply, shapeCast_self, col_bcast_apply]
  rfl

theorem tile0_eq (X : FVec Ideal S100000x128 .f32) (W : FVec Ideal S128x128 .f32) (D : FVec Ideal S100000x1 .f32)
    (x0 : Vec Ideal S5000x128 .f32) (x1 : Vec Ideal S128x128 .f32) (x2 : Vec Ideal S5000x1 .f32) (r : Nat) (hr : r < 20)
    (h0 : ∀ (p : Fin 5000) (k : Fin 128), x0 (ix2 p k) = X (ix2 (row r hr p) k))
    (h1 : ∀ (k q : Fin 128), x1 (ix2 k q) = W (ix2 k q))
    (h2 : ∀ (p : Fin 5000), x2 (ix2 p (0 : Fin 1)) = D (ix2 (row r hr p) (0 : Fin 1)))
    (p : Fin 5000) (q : Fin 128) :
    k0_pay1 x0 x1 x2 (ix2 p q) = G0 X W D (ix2 (row r hr p) q) := by
  rw [k0_pay1_apply, h2]
  show _ = lin X W (row r hr p) q * D (ix2 (row r hr p) (0 : Fin 1))
  unfold lin
  exact congrArg (· * D (ix2 (row r hr p) (0 : Fin 1))) (Finset.sum_congr rfl fun k _ => by rw [h0, h1])

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem emb0_0 (t : Fin cfg0.N) (p : Fin 5000) (k : Fin 128) :
    (((cfg0.win 0).blk t).view.emb (ix2 p k) : S100000x128.Idx) = ix2 (row t.val t.isLt p) k := by
  obtain ⟨e00, e01, e10, e11, e20, e21, e30, e31⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb0_1 (t : Fin cfg0.N) (k q : Fin 128) :
    (((cfg0.win 1).blk t).view.emb (ix2 k q) : S128x128.Idx) = ix2 k q := by
  obtain ⟨e00, e01, e10, e11, e20, e21, e30, e31⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb0_2 (t : Fin cfg0.N) (p : Fin 5000) :
    (((cfg0.win 2).blk t).view.emb (ix2 p (0 : Fin 1)) : S100000x1.Idx) = ix2 (row t.val t.isLt p) (0 : Fin 1) := by
  obtain ⟨e00, e01, e10, e11, e20, e21, e30, e31⟩ := idx_facts0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

theorem emb0_3 (t : Fin cfg0.N) (p : Fin 5000) (q : Fin 128) :
    (((cfg0.win 3).blk t).view.emb (ix2 p q) : S100000x128.Idx) = ix2 (row t.val t.isLt p) q := by
  obtain ⟨e00, e01, e10, e11, e20, e21, e30, e31⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

theorem flushed0_eq (c : Dev nD) (t : Fin cfg0.N) :
    (Fr.dat0 (F := Ideal) V c).flushed 3 t = ((cfg0.win 3).blk t).view.read (Elt Ideal)
      (G0 (V c main_arg0) (V c main_arg3) (V c main_v17)) := by
  show (cfg0.win 3).cut (grid0.coords t) ((Fr.dat0 (F := Ideal) V c).after 3 t) = _
  rw [Fr.after0_3]
  unfold Fr.out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k0_pay1 (Fr.iblk0 V c 0 t) (Fr.iblk0 V c 1 t) (Fr.iblk0 V c 2 t) (ix2 p q)
    = G0 (V c main_arg0) (V c main_arg3) (V c main_v17) (((cfg0.win 3).blk t).view.emb (ix2 p q))
  rw [emb0_3]
  refine tile0_eq (V c main_arg0) (V c main_arg3) (V c main_v17) _ _ _ t.val t.isLt ?_ ?_ ?_ p q
  · intro p k
    show V c main_arg0 (((cfg0.win 0).blk t).view.emb (ix2 p k)) = _
    rw [emb0_0]
  · intro k q
    show V c main_arg3 (((cfg0.win 1).blk t).view.emb (ix2 k q)) = _
    rw [emb0_1]
  · intro p
    show V c main_v17 (((cfg0.win 2).blk t).view.emb (ix2 p (0 : Fin 1))) = _
    rw [emb0_2]

theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨t, ht⟩ : ∃ t : Fin cfg0.N, t.val = (i 0).val / 5000 := ⟨⟨(i 0).val / 5000, hlt⟩, rfl⟩
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem arrAt0 (c : Dev nD) :
    (Fr.dat0 (F := Ideal) V c).arrAt 3 cfg0.N = G0 (V c main_arg0) (V c main_arg3) (V c main_v17) :=
  (Fr.dat0 (F := Ideal) V c).arrAt_eq_of_cover 3 (G0 (V c main_arg0) (V c main_arg3) (V c main_v17))
    (fun t _ => flushed0_eq V c t) cover0

theorem row_bcast_apply (b : FVec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) (fun a => ?_)
  match a with
  | ⟨0, _⟩ => show (0 : Nat) = if (1 : Nat) = 1 then 0 else p.val; rw [if_pos rfl]
  | ⟨1, _⟩ => show q.val = if (128 : Nat) = 1 then 0 else q.val; rw [if_neg (by decide)]

theorem k1_pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  show (matmul dot_S5000x128_S128x128_S5000x128_1_0_0_1_n_n none _ _ (constant (F := Ideal) S5000x128 .f32 0x00000000#32) (ix2 p q))
      * (broadcastTo S5000x128 (shapeCast S5000x1 x4 shapeCasts_S5000x1_S5000x1) broadcasts_S5000x1_S5000x128 (ix2 p q)) = _
  rw [tile_matmul_apply, col_bcast_apply]
  simp only [shapeCast_self]
  refine congrArg (· * x4 (ix2 p (0 : Fin 1))) (Finset.sum_congr rfl fun k _ => ?_)
  show max (x0 (ix2 p k) * broadcastTo S5000x128 x1 broadcasts_S5000x1_S5000x128 (ix2 p k)
        + broadcastTo S5000x128 x2 broadcasts_S1x128_S5000x128 (ix2 p k))
      (Ideal.ofBits .f32 0x00000000#32) * x3 (ix2 k q) = _
  rw [col_bcast_apply, row_bcast_apply, Ideal.ofBits_zero_f32]

theorem tile1_eq (A : FVec Ideal S100000x128 .f32) (D : FVec Ideal S100000x1 .f32) (B : FVec Ideal S1x128 .f32)
    (W : FVec Ideal S128x128 .f32)
    (x0 : Vec Ideal S5000x128 .f32) (x1 : Vec Ideal S5000x1 .f32) (x2 : Vec Ideal S1x128 .f32) (x3 : Vec Ideal S128x128 .f32)
    (r : Nat) (hr : r < 20)
    (h0 : ∀ (p : Fin 5000) (k : Fin 128), x0 (ix2 p k) = A (ix2 (row r hr p) k))
    (h1 : ∀ (p : Fin 5000), x1 (ix2 p (0 : Fin 1)) = D (ix2 (row r hr p) (0 : Fin 1)))
    (h2 : ∀ (k : Fin 128), x2 (ix2 (0 : Fin 1) k) = B (ix2 (0 : Fin 1) k))
    (h3 : ∀ (k q : Fin 128), x3 (ix2 k q) = W (ix2 k q))
    (p : Fin 5000) (q : Fin 128) :
    k1_pay1 x0 x1 x2 x3 x1 (ix2 p q) = G1 A D B W (ix2 (row r hr p) q) := by
  rw [k1_pay1_apply, h1]
  show _ = (∑ k : Fin 128, max (A (ix2 (row r hr p) k) * D (ix2 (row r hr p) (0 : Fin 1)) + B (ix2 (0 : Fin 1) k)) 0 * W (ix2 k q))
      * D (ix2 (row r hr p) (0 : Fin 1))
  exact congrArg (· * D (ix2 (row r hr p) (0 : Fin 1))) (Finset.sum_congr rfl fun k _ => by rw [h0, h2, h3])

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem emb1_0 (t : Fin cfg1.N) (p : Fin 5000) (k : Fin 128) :
    (((cfg1.win 0).blk t).view.emb (ix2 p k) : S100000x128.Idx) = ix2 (row t.val t.isLt p) k := by
  obtain ⟨e00, e01, e10, e11, e20, e21, e30, e31, e40, e41⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb1_1 (t : Fin cfg1.N) (p : Fin 5000) :
    (((cfg1.win 1).blk t).view.emb (ix2 p (0 : Fin 1)) : S100000x1.Idx) = ix2 (row t.val t.isLt p) (0 : Fin 1) := by
  obtain ⟨e00, e01, e10, e11, e20, e21, e30, e31, e40, e41⟩ := idx_facts1 t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem emb1_2 (t : Fin cfg1.N) (k : Fin 128) :
    (((cfg1.win 2).blk t).view.emb (ix2 (0 : Fin 1) k) : S1x128.Idx) = ix2 (0 : Fin 1) k := by
  obtain ⟨e00, e01, e10, e11, e20, e21, e30, e31, e40, e41⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * k.val = k.val; omega

theorem emb1_3 (t : Fin cfg1.N) (k q : Fin 128) :
    (((cfg1.win 3).blk t).view.emb (ix2 k q) : S128x128.Idx) = ix2 k q := by
  obtain ⟨e00, e01, e10, e11, e20, e21, e30, e31, e40, e41⟩ := idx_facts1 t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb1_4 (t : Fin cfg1.N) (p : Fin 5000) (q : Fin 128) :
    (((cfg1.win 4).blk t).view.emb (ix2 p q) : S100000x128.Idx) = ix2 (row t.val t.isLt p) q := by
  obtain ⟨e00, e01, e10, e11, e20, e21, e30, e31, e40, e41⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

theorem flushed1_eq (c : Dev nD) (t : Fin cfg1.N) :
    (Fr.dat1 (F := Ideal) V c).flushed 4 t = ((cfg1.win 4).blk t).view.read (Elt Ideal)
      (G1 (V c main_v29) (V c main_v17) (V c main_v30) (V c main_arg5)) := by
  show (cfg1.win 4).cut (grid1.coords t) ((Fr.dat1 (F := Ideal) V c).after 4 t) = _
  rw [Fr.after1_4]
  unfold Fr.out1_4
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  show k1_pay1 (Fr.iblk1 V c 0 t) (Fr.iblk1 V c 1 t) (Fr.iblk1 V c 2 t) (Fr.iblk1 V c 3 t) (Fr.iblk1 V c 1 t) (ix2 p q)
    = G1 (V c main_v29) (V c main_v17) (V c main_v30) (V c main_arg5) (((cfg1.win 4).blk t).view.emb (ix2 p q))
  rw [emb1_4]
  refine tile1_eq (V c main_v29) (V c main_v17) (V c main_v30) (V c main_arg5) _ _ _ _ t.val t.isLt ?_ ?_ ?_ ?_ p q
  · intro p k
    show V c main_v29 (((cfg1.win 0).blk t).view.emb (ix2 p k)) = _
    rw [emb1_0]
  · intro p
    show V c main_v17 (((cfg1.win 1).blk t).view.emb (ix2 p (0 : Fin 1))) = _
    rw [emb1_1]
  · intro k
    show V c main_v30 (((cfg1.win 2).blk t).view.emb (ix2 (0 : Fin 1) k)) = _
    rw [emb1_2]
  · intro k q
    show V c main_arg5 (((cfg1.win 3).blk t).view.emb (ix2 k q)) = _
    rw [emb1_3]

theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hlt : (i 0).val / 5000 < 20 := by omega
  obtain ⟨t, ht⟩ : ∃ t : Fin cfg1.N, t.val = (i 0).val / 5000 := ⟨⟨(i 0).val / 5000, hlt⟩, rfl⟩
  obtain ⟨e00, e01, e10, e11, e20, e21, e30, e31, e40, e41⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem arrAt1 (c : Dev nD) :
    (Fr.dat1 (F := Ideal) V c).arrAt 4 cfg1.N = G1 (V c main_v29) (V c main_v17) (V c main_v30) (V c main_arg5) :=
  (Fr.dat1 (F := Ideal) V c).arrAt_eq_of_cover 4 (G1 (V c main_v29) (V c main_v17) (V c main_v30) (V c main_arg5))
    (fun t _ => flushed1_eq V c t) cover1

end Cert.KernelIdeal.Val

end
-- ==== Proof.Val.Reg2Pay.lean ====
import proofs.«423030_j12790412607644_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StableHlo.Predicate

noncomputable section

namespace Cert.KernelIdeal.Val

open Idealize.ShloMosaic Idealize.ShloMosaic.ValueIdx Cert.KernelIdeal Cert.KernelIdeal.Gen
open Idealize.ShloMosaic.StableHlo.Predicate (cmpi_eq_iff)

theorem indicator_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · rw [if_pos h, cmpi_eq_iff.mpr h]; simp
  · rw [if_neg h]
    have h0 : IntOp.cmpi .eq a b = 0#1 := by
      have hne : ¬ IntOp.cmpi .eq a b = 1#1 := fun e => h (cmpi_eq_iff.mp e)
      revert hne
      generalize IntOp.cmpi .eq a b = c
      revert c; decide
    rw [h0]; simp

theorem mask_apply (v16 : Vec Ideal S2000x1 .i32) (r : Fin 2000) (g : Fin 512) :
    k2_pay4 (F := Ideal) v16 (ix2 r g) = IntOp.cmpi .eq (v16 (ix2 r (0 : Fin 1))) (BitVec.ofNat 32 g.val) := by
  unfold k2_pay4
  show IntOp.cmpi .eq (broadcastTo S2000x512 (shapeCast S2000x1 v16 shapeCasts_S2000x1_S2000x1) broadcasts_S2000x1_S2000x512 (ix2 r g))
      (iota .tc S2000x512 32 [1] iota_S2000x512_d1_w32 (ix2 r g)) = _
  rw [shapeCast_self, iota_single_apply]
  rw [broadcastTo_apply v16 broadcasts_S2000x1_S2000x512 (ix2 r g) (ix2 r (0 : Fin 1)) (fun a => by
    match a with
    | ⟨0, _⟩ => rfl
    | ⟨1, _⟩ => rfl)]

theorem lhs2_0 (j : S512x128.Idx) (k : dot_S2000x512_S2000x128_S512x128_0_0_1_1_n_n.contr.Idx) :
    (dot_S2000x512_S2000x128_S512x128_0_0_1_1_n_n.lhsIdx j k 0).val = (k ⟨0, by decide⟩).val :=
  dot_S2000x512_S2000x128_S512x128_0_0_1_1_n_n.lhsIdx_val_of_single rfl j k
theorem lhs2_1 (j : S512x128.Idx) (k : dot_S2000x512_S2000x128_S512x128_0_0_1_1_n_n.contr.Idx) :
    (dot_S2000x512_S2000x128_S512x128_0_0_1_1_n_n.lhsIdx j k 1).val = (j 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs2_0 (j : S512x128.Idx) (k : dot_S2000x512_S2000x128_S512x128_0_0_1_1_n_n.contr.Idx) :
    (dot_S2000x512_S2000x128_S512x128_0_0_1_1_n_n.rhsIdx j k 0).val = (k ⟨0, by decide⟩).val :=
  dot_S2000x512_S2000x128_S512x128_0_0_1_1_n_n.rhsIdx_val_of_single rfl j k
theorem rhs2_1 (j : S512x128.Idx) (k : dot_S2000x512_S2000x128_S512x128_0_0_1_1_n_n.contr.Idx) :
    (dot_S2000x512_S2000x128_S512x128_0_0_1_1_n_n.rhsIdx j k 1).val = (j 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

theorem matmul2_apply (L : FVec Ideal S2000x512 .bf16) (R : FVec Ideal S2000x128 .bf16) (g : Fin 512) (q : Fin 128) :
    matmul (F := Ideal) dot_S2000x512_S2000x128_S512x128_0_0_1_1_n_n none L R (constant (F := Ideal) S512x128 .f32 0x00000000#32) (ix2 g q)
      = ∑ r : Fin 2000, L (ix2 r g) * R (ix2 r q) := by
  refine (Ideal.matmul_constant_zero_apply dot_S2000x512_S2000x128_S512x128_0_0_1_1_n_n none L R (ix2 g q)).trans ?_
  rw [← Equiv.sum_comp (contrEquiv1 dot_S2000x512_S2000x128_S512x128_0_0_1_1_n_n 2000 rfl rfl).symm]
  refine Finset.sum_congr rfl fun r _ => ?_
  have hk := contrEquiv1_symm_val dot_S2000x512_S2000x128_S512x128_0_0_1_1_n_n 2000 rfl rfl r
  have el : dot_S2000x512_S2000x128_S512x128_0_0_1_1_n_n.lhsIdx (ix2 g q) ((contrEquiv1 dot_S2000x512_S2000x128_S512x128_0_0_1_1_n_n 2000 rfl rfl).symm r) = ix2 r g := funext fun a => Fin.ext (by
    match a with
    | ⟨0, _⟩ => exact (lhs2_0 _ _).trans hk
    | ⟨1, _⟩ => exact lhs2_1 _ _)
  have er : dot_S2000x512_S2000x128_S512x128_0_0_1_1_n_n.rhsIdx (ix2 g q) ((contrEquiv1 dot_S2000x512_S2000x128_S512x128_0_0_1_1_n_n 2000 rfl rfl).symm r) = ix2 r q := funext fun a => Fin.ext (by
    match a with
    | ⟨0, _⟩ => exact (rhs2_0 _ _).trans hk
    | ⟨1, _⟩ => exact rhs2_1 _ _)
  rw [el, er]

theorem k2_pay5_apply (v3 : Vec Ideal S2000x128 .f32) (v5 : Vec Ideal S2000x1 .f32) (v9 : Vec Ideal S1x128 .f32)
    (v16 : Vec Ideal S2000x1 .i32) (v29 : Vec Ideal S512x128 .f32) (g : Fin 512) (q : Fin 128) :
    k2_pay5 (F := Ideal) v3 v5 v9 v16 v29 (ix2 g q)
      = v29 (ix2 g q) + ∑ r : Fin 2000, (if v16 (ix2 r (0 : Fin 1)) = BitVec.ofNat 32 g.val then (1 : EReal) else 0)
          * max (v3 (ix2 r q) * v5 (ix2 r (0 : Fin 1)) + v9 (ix2 (0 : Fin 1) q)) 0 := by
  unfold k2_pay5
  rw [shapeCast_self]
  refine (addf_apply _ _ _).trans ?_
  refine congrArg (v29 (ix2 g q) + ·) ?_
  refine (matmul2_apply _ _ g q).trans ?_
  refine Finset.sum_congr rfl fun r _ => ?_
  refine congrArg₂ (· * ·) ?_ ?_
  · show FloatOps.sitofp (F := Ideal) .f32 ((k2_pay4 (F := Ideal) v16 (ix2 r g)).setWidth 32) = _
    rw [mask_apply]
    exact indicator_word _ _
  · show max (shapeCast S2000x128 v3 shapeCasts_S2000x128_S2000x128 (ix2 r q)
          * broadcastTo S2000x128 (shapeCast S2000x1 v5 shapeCasts_S2000x1_S2000x1) broadcasts_S2000x1_S2000x128 (ix2 r q)
          + broadcastTo S2000x128 (shapeCast S1x128 v9 shapeCasts_S1x128_S1x128) broadcasts_S1x128_S2000x128 (ix2 r q))
        (Ideal.ofBits .f32 0x00000000#32) = _
    rw [shapeCast_self, shapeCast_self, shapeCast_self, Ideal.ofBits_zero_f32,
      broadcastTo_apply v5 broadcasts_S2000x1_S2000x128 (ix2 r q) (ix2 r (0 : Fin 1)) (fun a => by
        match a with
        | ⟨0, _⟩ => rfl
        | ⟨1, _⟩ => rfl),
      broadcastTo_apply v9 broadcasts_S1x128_S2000x128 (ix2 r q) (ix2 (0 : Fin 1) q) (fun a => by
        match a with
        | ⟨0, _⟩ => rfl
        | ⟨1, _⟩ => rfl)]

theorem k2_pay6_apply (v16 : Vec Ideal S2000x1 .i32) (v34 : Vec Ideal S1x512 .f32) (g : Fin 512) :
    k2_pay6 (F := Ideal) v16 v34 (ix2 (0 : Fin 1) g)
      = v34 (ix2 (0 : Fin 1) g) + ∑ r : Fin 2000, (if v16 (ix2 r (0 : Fin 1)) = BitVec.ofNat 32 g.val then (1 : EReal) else 0) := by
  unfold k2_pay6
  refine (addf_apply _ _ _).trans ?_
  refine congrArg (v34 (ix2 (0 : Fin 1) g) + ·) ?_
  refine (shapeCast_apply _ shapeCasts_S512_S1x512 (ix2 (0 : Fin 1) g) (ix1 g) ?_).trans ?_
  · rw [Shape.rowMajor_val_two, Shape.rowMajor_val_one]
    show g.val = 0 * 512 + g.val
    omega
  refine (Ideal.multiReduction_add_single (sitofp (F := Ideal) .f32 (extui 32 (k2_pay4 (F := Ideal) v16) natLt_1_32)) 0x00000000#32 reduces_S2000x512_S512 (.inl rfl) rfl (ix1 g)).trans ?_
  refine Finset.sum_congr rfl fun (r : Fin 2000) _ => ?_
  have e : reduces_S2000x512_S512.lift (ix1 g) r = ix2 (n0 := 2000) (n1 := 512) r g := funext fun a => Fin.ext (by
    match a with
    | ⟨0, _⟩ => rfl
    | ⟨1, _⟩ => rfl)
  show FloatOps.sitofp (F := Ideal) .f32 ((k2_pay4 (F := Ideal) v16 (reduces_S2000x512_S512.lift (ix1 g) r)).setWidth 32) = _
  rw [e, mask_apply]
  exact indicator_word _ _

theorem k2_pay2_apply (j : S512x128.Idx) : k2_pay2 (F := Ideal) j = 0 := by
  unfold k2_pay2
  rw [shapeCast_self]
  exact Ideal.ofBits_zero_f32

theorem k2_pay3_apply (j : S1x512.Idx) : k2_pay3 (F := Ideal) j = 0 := by
  unfold k2_pay3
  rw [shapeCast_self]
  exact Ideal.ofBits_zero_f32

theorem k2_pay1_eq {F : FTy → Type} [FloatOps F] (v35 : FVec F S1x512 .f32) : k2_pay1 (F := F) v35 = v35 := by
  unfold k2_pay1
  exact shapeCast_self _ _

end Cert.KernelIdeal.Val

end
-- ==== Proof.Val.Reg2Sum.lean ====
import proofs.«423030_j12790412607644_2_alg».proof.Proof.Val.Spec
import Mathlib.Algebra.BigOperators.Fin
import Mathlib.Algebra.BigOperators.Group.Finset.Sigma
import Mathlib.Logic.Equiv.Fin.Basic

noncomputable section

namespace Cert.KernelIdeal.Val

open Idealize.ShloMosaic Idealize.ShloMosaic.ValueIdx Cert.KernelIdeal

def tileRow (t : Fin 50) (r : Fin 2000) : Fin 100000 := ⟨2000 * t.val + r.val, by have := t.isLt; have := r.isLt; omega⟩

theorem sum_tileRows {M : Type} [AddCommMonoid M] (f : Fin 100000 → M) :
    ∑ t : Fin 50, ∑ r : Fin 2000, f (tileRow t r) = ∑ i : Fin 100000, f i := by
  rw [← Fintype.sum_prod_type']
  exact Fintype.sum_equiv (finProdFinEquiv (m := 50) (n := 2000)) _ _ fun x => congrArg f (Fin.ext (by
    show 2000 * x.1.val + x.2.val = x.2.val + 2000 * x.1.val
    omega))

def runTo {M : Type} [AddCommMonoid M] (f : Fin 50 → M) : (n : ℕ) → n < 50 → M
  | 0, h => f ⟨0, h⟩
  | n + 1, h => runTo f n (Nat.lt_of_succ_lt h) + f ⟨n + 1, h⟩

theorem runTo_eq_sum {M : Type} [AddCommMonoid M] (f : Fin 50 → M) :
    ∀ (n : ℕ) (h : n < 50), runTo f n h = ∑ t : Fin (n + 1), f ⟨t.val, by have := t.isLt; omega⟩
  | 0, h => by
    show f ⟨0, h⟩ = _
    rw [Fin.sum_univ_one]
    rfl
  | n + 1, h => by
    show runTo f n _ + f ⟨n + 1, h⟩ = _
    rw [runTo_eq_sum f n]
    exact (Fin.sum_univ_castSucc (fun t : Fin (n + 1 + 1) => f ⟨t.val, by have := t.isLt; omega⟩)).symm

theorem runTo_last {M : Type} [AddCommMonoid M] (f : Fin 50 → M) (h : 49 < 50) : runTo f 49 h = ∑ t : Fin 50, f t :=
  runTo_eq_sum f 49 h

def tileS (a : FVec Ideal S100000x128 .f32) (d : FVec Ideal S100000x1 .f32) (b : FVec Ideal S1x128 .f32)
    (bt : IVec S100000x1 32) (g : Fin 512) (q : Fin 128) (t : Fin 50) : EReal :=
  ∑ r : Fin 2000, member bt (tileRow t r) g * hid a d b (ix2 (tileRow t r) q)

def tileC (bt : IVec S100000x1 32) (g : Fin 512) (t : Fin 50) : EReal :=
  ∑ r : Fin 2000, member bt (tileRow t r) g

theorem runTo_tileS_last (a : FVec Ideal S100000x128 .f32) (d : FVec Ideal S100000x1 .f32) (b : FVec Ideal S1x128 .f32)
    (bt : IVec S100000x1 32) (g : Fin 512) (q : Fin 128) (h : 49 < 50) :
    runTo (tileS a d b bt g q) 49 h = G2s a d b bt (ix2 g q) := by
  rw [runTo_last]
  exact sum_tileRows fun r => member bt r g * hid a d b (ix2 r q)

theorem runTo_tileC_last (bt : IVec S100000x1 32) (g : Fin 512) (h : 49 < 50) :
    runTo (tileC bt g) 49 h = G2c bt (ix2 (0 : Fin 1) g) := by
  rw [runTo_last]
  exact sum_tileRows fun r => member bt r g

end Cert.KernelIdeal.Val

end
-- ==== Proof.Val.Reg2Val.lean ====
import proofs.«423030_j12790412607644_2_alg».proof.Proof.KI.Reg2
import proofs.«423030_j12790412607644_2_alg».proof.Proof.Val.Spec
import proofs.«423030_j12790412607644_2_alg».proof.Proof.Val.Reg2Pay
import proofs.«423030_j12790412607644_2_alg».proof.Proof.Val.Reg2Sum
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr

variable {F : FTy → Type} [FloatOps F]

theorem hz2 : (![0, 0] : Fin 2 → Nat) = fun _ => 0 := funext fun a => by fin_cases a <;> rfl

section
variable (c : Dev nD) (t : Fin cfg2.N) (hc0 : cond2_0 (grid2.coords t)) (hc1 : ¬cond2_1 (grid2.coords t)) (x0 : Vec F S2000x128 .f32) (x1 : Vec F S2000x1 .f32) (x2 : Vec F S1x128 .f32) (x3 : Vec F S2000x1 .i32)

theorem sout2_A_0_eq :
    sout2_A_0 c t hc0 hc1 x0 x1 x2 x3 = k2_pay5 x0 x1 x2 x3 (k2_pay2 (F := F)) := by
  unfold sout2_A_0
  rw [View.read_writes_eq_canon _ _ _ (scover2_A_0 c t hc0 hc1 x0 x1 x2 x3)]
  unfold runA kernelRun2_A
  dsimp only
  sl_unfold_words
  rw [View.canon_cons_unit_zero (S := S512x128) hz2]
  simp only [View.readAt_eq_ld, (hs2_0 t).read_unread, (hs2_1 t).read_unread, (hs2_2 t).read_unread, (hs2_3 t).read_unread,
    View.ld_unit_zero (S := S2000x128) hz2, View.ld_unit_zero (S := S2000x1) hz2, View.ld_unit_zero (S := S1x128) hz2,
    View.readCov_unit_zero (S := S512x128) _ hz2]

theorem sout2_A_1_eq :
    sout2_A_1 c t hc0 hc1 x0 x1 x2 x3 = k2_pay1 (k2_pay6 x3 (k2_pay3 (F := F))) := by
  unfold sout2_A_1
  rw [View.read_writes_eq_canon _ _ _ (scover2_A_1 c t hc0 hc1 x0 x1 x2 x3)]
  unfold runA kernelRun2_A
  dsimp only
  sl_unfold_words
  rw [View.canon_cons_unit_zero (S := S1x512) hz2]
  simp only [View.readAt_eq_ld, (hs2_3 t).read_unread, View.ld_unit_zero (S := S2000x1) hz2,
    View.readCov_unit_zero (S := S1x512) _ hz2]

end

section
variable (c : Dev nD) (t : Fin cfg2.N) (hc0 : ¬cond2_0 (grid2.coords t)) (hc1 : ¬cond2_1 (grid2.coords t)) (x0 : Vec F S2000x128 .f32) (x1 : Vec F S2000x1 .f32) (x2 : Vec F S1x128 .f32) (x3 : Vec F S2000x1 .i32) (xs0 : Vec F S512x128 .f32) (xs1 : Vec F S1x512 .f32)

theorem sout2_B_0_eq :
    sout2_B_0 c t hc0 hc1 x0 x1 x2 x3 xs0 xs1 = k2_pay5 x0 x1 x2 x3 xs0 := by
  unfold sout2_B_0
  rw [View.read_writes_eq_canon _ _ _ (scover2_B_0 c t hc0 hc1 x0 x1 x2 x3 xs0 xs1)]
  unfold runB kernelRun2_B
  dsimp only
  sl_unfold_words
  rw [View.canon_unit_zero (S := S512x128) hz2]
  simp only [View.readAt_eq_ld, (hs2_0 t).read_unread, (hs2_1 t).read_unread, (hs2_2 t).read_unread, (hs2_3 t).read_unread, hsc2_0.read_unread,
    View.ld_unit_zero (S := S2000x128) hz2, View.ld_unit_zero (S := S2000x1) hz2, View.ld_unit_zero (S := S1x128) hz2,
    View.ld_unit_zero (S := S512x128) hz2]

theorem sout2_B_1_eq :
    sout2_B_1 c t hc0 hc1 x0 x1 x2 x3 xs0 xs1 = k2_pay1 (k2_pay6 x3 xs1) := by
  unfold sout2_B_1
  rw [View.read_writes_eq_canon _ _ _ (scover2_B_1 c t hc0 hc1 x0 x1 x2 x3 xs0 xs1)]
  unfold runB kernelRun2_B
  dsimp only
  sl_unfold_words
  rw [View.canon_unit_zero (S := S1x512) hz2]
  simp only [View.readAt_eq_ld, (hs2_3 t).read_unread, hsc2_1.read_unread, View.ld_unit_zero (S := S2000x1) hz2,
    View.ld_unit_zero (S := S1x512) hz2]

end

section
variable (c : Dev nD) (t : Fin cfg2.N) (hc0 : ¬cond2_0 (grid2.coords t)) (hc1 : cond2_1 (grid2.coords t)) (x0 : Vec F S2000x128 .f32) (x1 : Vec F S2000x1 .f32) (x2 : Vec F S1x128 .f32) (x3 : Vec F S2000x1 .i32) (xs0 : Vec F S512x128 .f32) (xs1 : Vec F S1x512 .f32)

theorem sout2_C_0_eq :
    sout2_C_0 c t hc0 hc1 x0 x1 x2 x3 xs0 xs1 = k2_pay5 x0 x1 x2 x3 xs0 := by
  unfold sout2_C_0
  rw [View.read_writes_eq_canon _ _ _ (scover2_C_0 c t hc0 hc1 x0 x1 x2 x3 xs0 xs1)]
  unfold runC kernelRun2_C
  dsimp only
  sl_unfold_words
  rw [View.canon_unit_zero (S := S512x128) hz2]
  simp only [View.readAt_eq_ld, (hs2_0 t).read_unread, (hs2_1 t).read_unread, (hs2_2 t).read_unread, (hs2_3 t).read_unread, hsc2_0.read_unread,
    View.ld_unit_zero (S := S2000x128) hz2, View.ld_unit_zero (S := S2000x1) hz2, View.ld_unit_zero (S := S1x128) hz2,
    View.ld_unit_zero (S := S512x128) hz2]

theorem sout2_C_1_eq :
    sout2_C_1 c t hc0 hc1 x0 x1 x2 x3 xs0 xs1 = k2_pay1 (k2_pay6 x3 xs1) := by
  unfold sout2_C_1
  rw [View.read_writes_eq_canon _ _ _ (scover2_C_1 c t hc0 hc1 x0 x1 x2 x3 xs0 xs1)]
  unfold runC kernelRun2_C
  dsimp only
  sl_unfold_words
  rw [View.canon_unit_zero (S := S1x512) hz2]
  simp only [View.readAt_eq_ld, (hs2_3 t).read_unread, hsc2_1.read_unread, View.ld_unit_zero (S := S2000x1) hz2,
    View.ld_unit_zero (S := S1x512) hz2]

theorem out2_C_4_eq :
    out2_C_4 c t hc0 hc1 x0 x1 x2 x3 xs0 xs1 = k2_pay5 x0 x1 x2 x3 xs0 := by
  unfold out2_C_4
  rw [View.read_writes_eq_canon _ _ _ (cover2_C_4 c t hc0 hc1 x0 x1 x2 x3 xs0 xs1)]
  unfold runC kernelRun2_C
  dsimp only
  sl_unfold_words
  rw [View.canon_unit_zero (S := S512x128) hz2]
  simp only [View.readAt_eq_ld, (hs2_0 t).read_unread, (hs2_1 t).read_unread, (hs2_2 t).read_unread, (hs2_3 t).read_unread, hsc2_0.read_unread,
    View.ld_unit_zero (S := S2000x128) hz2, View.ld_unit_zero (S := S2000x1) hz2, View.ld_unit_zero (S := S1x128) hz2,
    View.ld_unit_zero (S := S512x128) hz2, View.readCov_unit_zero (S := S512x128) _ hz2]

theorem out2_C_5_eq :
    out2_C_5 c t hc0 hc1 x0 x1 x2 x3 xs0 xs1 = k2_pay1 (k2_pay6 x3 xs1) := by
  unfold out2_C_5
  rw [View.read_writes_eq_canon _ _ _ (cover2_C_5 c t hc0 hc1 x0 x1 x2 x3 xs0 xs1)]
  unfold runC kernelRun2_C
  dsimp only
  sl_unfold_words
  rw [View.canon_unit_zero (S := S1x512) hz2]
  simp only [View.readAt_eq_ld, (hs2_3 t).read_unread, hsc2_1.read_unread, View.ld_unit_zero (S := S2000x1) hz2,
    View.ld_unit_zero (S := S1x512) hz2, View.readCov_unit_zero (S := S1x512) _ hz2]

end

theorem tileS_step (A : FVec Ideal S100000x128 .f32) (D : FVec Ideal S100000x1 .f32) (B : FVec Ideal S1x128 .f32)
    (BT : IVec S100000x1 32)
    (x0 : Vec Ideal S2000x128 .f32) (x1 : Vec Ideal S2000x1 .f32) (x2 : Vec Ideal S1x128 .f32) (x3 : Vec Ideal S2000x1 .i32)
    (acc : Vec Ideal S512x128 .f32) (t : Fin 50)
    (h0 : ∀ (r : Fin 2000) (q : Fin 128), x0 (ix2 r q) = A (ix2 (tileRow t r) q))
    (h1 : ∀ (r : Fin 2000), x1 (ix2 r (0 : Fin 1)) = D (ix2 (tileRow t r) (0 : Fin 1)))
    (h2 : ∀ (q : Fin 128), x2 (ix2 (0 : Fin 1) q) = B (ix2 (0 : Fin 1) q))
    (h3 : ∀ (r : Fin 2000), x3 (ix2 r (0 : Fin 1)) = BT (ix2 (tileRow t r) (0 : Fin 1)))
    (g : Fin 512) (q : Fin 128) :
    k2_pay5 (F := Ideal) x0 x1 x2 x3 acc (ix2 g q) = acc (ix2 g q) + tileS A D B BT g q t := by
  rw [k2_pay5_apply]
  refine congrArg (acc (ix2 g q) + ·) (Finset.sum_congr rfl fun r _ => ?_)
  rw [h0, h1, h2, h3]
  rfl

theorem tileC_step (BT : IVec S100000x1 32) (x3 : Vec Ideal S2000x1 .i32) (acc : Vec Ideal S1x512 .f32) (t : Fin 50)
    (h3 : ∀ (r : Fin 2000), x3 (ix2 r (0 : Fin 1)) = BT (ix2 (tileRow t r) (0 : Fin 1))) (g : Fin 512) :
    k2_pay1 (k2_pay6 (F := Ideal) x3 acc) (ix2 (0 : Fin 1) g) = acc (ix2 (0 : Fin 1) g) + tileC BT g t := by
  rw [k2_pay1_eq, k2_pay6_apply]
  refine congrArg (acc (ix2 (0 : Fin 1) g) + ·) (Finset.sum_congr rfl fun r _ => ?_)
  rw [h3]
  rfl

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

def tileOf (t : Fin cfg2.N) : Fin 50 := ⟨t.val, lt_of_lt_of_eq t.isLt N_2⟩

theorem emb2_0 (t : Fin cfg2.N) (r : Fin 2000) (q : Fin 128) :
    (((cfg2.win 0).blk t).view.emb (ix2 r q) : S100000x128.Idx) = ix2 (tileRow (tileOf t) r) q := by
  obtain ⟨e00, e01, e10, e11, e20, e21, e30, e31, e40, e41, e50, e51⟩ := idx_facts2 t
  funext a; apply Fin.ext
  match a with
  | ⟨0, _⟩ => show win2_0.index t (0 : Fin 2) * 2000 + 1 * r.val = 2000 * t.val + r.val; omega
  | ⟨1, _⟩ => show win2_0.index t (1 : Fin 2) * 128 + 1 * q.val = q.val; omega

theorem emb2_1 (t : Fin cfg2.N) (r : Fin 2000) :
    (((cfg2.win 1).blk t).view.emb (ix2 r (0 : Fin 1)) : S100000x1.Idx) = ix2 (tileRow (tileOf t) r) (0 : Fin 1) := by
  obtain ⟨e00, e01, e10, e11, e20, e21, e30, e31, e40, e41, e50, e51⟩ := idx_facts2 t
  funext a; apply Fin.ext
  match a with
  | ⟨0, _⟩ => show win2_1.index t (0 : Fin 2) * 2000 + 1 * r.val = 2000 * t.val + r.val; omega
  | ⟨1, _⟩ => show win2_1.index t (1 : Fin 2) * 1 + 1 * 0 = 0; omega

theorem emb2_2 (t : Fin cfg2.N) (q : Fin 128) :
    (((cfg2.win 2).blk t).view.emb (ix2 (0 : Fin 1) q) : S1x128.Idx) = ix2 (0 : Fin 1) q := by
  obtain ⟨e00, e01, e10, e11, e20, e21, e30, e31, e40, e41, e50, e51⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem emb2_3 (t : Fin cfg2.N) (r : Fin 2000) :
    (((cfg2.win 3).blk t).view.emb (ix2 r (0 : Fin 1)) : S100000x1.Idx) = ix2 (tileRow (tileOf t) r) (0 : Fin 1) := by
  obtain ⟨e00, e01, e10, e11, e20, e21, e30, e31, e40, e41, e50, e51⟩ := idx_facts2 t
  funext a; apply Fin.ext
  match a with
  | ⟨0, _⟩ => show win2_3.index t (0 : Fin 2) * 2000 + 1 * r.val = 2000 * t.val + r.val; omega
  | ⟨1, _⟩ => show win2_3.index t (1 : Fin 2) * 1 + 1 * 0 = 0; omega

theorem emb2_4 (t : Fin cfg2.N) (g : Fin 512) (q : Fin 128) :
    (((cfg2.win 4).blk t).view.emb (ix2 g q) : S512x128.Idx) = ix2 g q := by
  obtain ⟨e00, e01, e10, e11, e20, e21, e30, e31, e40, e41, e50, e51⟩ := idx_facts2 t
  funext a; apply Fin.ext
  match a with
  | ⟨0, _⟩ => show win2_4.index t (0 : Fin 2) * 512 + 1 * g.val = g.val; omega
  | ⟨1, _⟩ => show win2_4.index t (1 : Fin 2) * 128 + 1 * q.val = q.val; omega

theorem emb2_5 (t : Fin cfg2.N) (g : Fin 512) :
    (((cfg2.win 5).blk t).view.emb (ix2 (0 : Fin 1) g) : S1x512.Idx) = ix2 (0 : Fin 1) g := by
  obtain ⟨e00, e01, e10, e11, e20, e21, e30, e31, e40, e41, e50, e51⟩ := idx_facts2 t
  funext a; apply Fin.ext
  match a with
  | ⟨0, _⟩ => show win2_5.index t (0 : Fin 2) * 1 + 1 * 0 = 0; omega
  | ⟨1, _⟩ => show win2_5.index t (1 : Fin 2) * 512 + 1 * g.val = g.val; omega

variable (V : (c : Dev nD) → (b : Ref sig .tc) → Buf (Elt Ideal) ((c : Thread nD τ).loc b))

abbrev xa (c : Dev nD) (t : Fin cfg2.N) : Vec Ideal S2000x128 .f32 := Fr.iblk2 V c 0 t
abbrev xd (c : Dev nD) (t : Fin cfg2.N) : Vec Ideal S2000x1 .f32 := Fr.iblk2 V c 1 t
abbrev xb (c : Dev nD) (t : Fin cfg2.N) : Vec Ideal S1x128 .f32 := Fr.iblk2 V c 2 t
abbrev xg (c : Dev nD) (t : Fin cfg2.N) : Vec Ideal S2000x1 .i32 := Fr.iblk2 V c 3 t

theorem xa_apply (c : Dev nD) (t : Fin cfg2.N) (r : Fin 2000) (q : Fin 128) :
    xa V c t (ix2 r q) = (V c main_v42 : FVec Ideal S100000x128 .f32) (ix2 (tileRow (tileOf t) r) q) := by
  show V c main_v42 (((cfg2.win 0).blk t).view.emb (ix2 r q)) = _
  rw [emb2_0]
theorem xd_apply (c : Dev nD) (t : Fin cfg2.N) (r : Fin 2000) :
    xd V c t (ix2 r (0 : Fin 1)) = (V c main_v17 : FVec Ideal S100000x1 .f32) (ix2 (tileRow (tileOf t) r) (0 : Fin 1)) := by
  show V c main_v17 (((cfg2.win 1).blk t).view.emb (ix2 r (0 : Fin 1))) = _
  rw [emb2_1]
theorem xb_apply (c : Dev nD) (t : Fin cfg2.N) (q : Fin 128) :
    xb V c t (ix2 (0 : Fin 1) q) = (V c main_v43 : FVec Ideal S1x128 .f32) (ix2 (0 : Fin 1) q) := by
  show V c main_v43 (((cfg2.win 2).blk t).view.emb (ix2 (0 : Fin 1) q)) = _
  rw [emb2_2]
theorem xg_apply (c : Dev nD) (t : Fin cfg2.N) (r : Fin 2000) :
    xg V c t (ix2 r (0 : Fin 1)) = (V c main_v44 : IVec S100000x1 32) (ix2 (tileRow (tileOf t) r) (0 : Fin 1)) := by
  show V c main_v44 (((cfg2.win 3).blk t).view.emb (ix2 r (0 : Fin 1))) = _
  rw [emb2_3]

theorem scratch_inv (c : Dev nD) : ∀ (n : ℕ) (hn : n < cfg2.N),
    (∀ (g : Fin 512) (q : Fin 128), (Fr.outsAt2 (F := Ideal) V c n hn).2.2.1 (ix2 g q)
        = runTo (tileS (V c main_v42) (V c main_v17) (V c main_v43) (V c main_v44) g q) n (lt_of_lt_of_eq hn N_2))
    ∧ (∀ (g : Fin 512), (Fr.outsAt2 (F := Ideal) V c n hn).2.2.2 (ix2 (0 : Fin 1) g)
        = runTo (tileC (V c main_v44) g) n (lt_of_lt_of_eq hn N_2))
  | 0, hn => by
    refine ⟨fun g q => ?_, fun g => ?_⟩
    · rw [Fr.outsAt2_A V c ⟨0, hn⟩ rfl]
      dsimp only
      rw [sout2_A_0_eq]
      refine (tileS_step (V c main_v42) (V c main_v17) (V c main_v43) (V c main_v44) (xa V c ⟨0, hn⟩) (xd V c ⟨0, hn⟩) (xb V c ⟨0, hn⟩) (xg V c ⟨0, hn⟩)
        (k2_pay2 (F := Ideal)) (tileOf ⟨0, hn⟩) (xa_apply V c ⟨0, hn⟩) (xd_apply V c ⟨0, hn⟩) (xb_apply V c ⟨0, hn⟩) (xg_apply V c ⟨0, hn⟩) g q).trans ?_
      rw [k2_pay2_apply, zero_add]
      rfl
    · rw [Fr.outsAt2_A V c ⟨0, hn⟩ rfl]
      dsimp only
      rw [sout2_A_1_eq]
      refine (tileC_step (V c main_v44) (xg V c ⟨0, hn⟩) (k2_pay3 (F := Ideal)) (tileOf ⟨0, hn⟩) (xg_apply V c ⟨0, hn⟩) g).trans ?_
      rw [k2_pay3_apply, zero_add]
      rfl
  | n + 1, hn => by
    have ih := scratch_inv c n (Nat.lt_of_succ_lt hn)
    refine ⟨fun g q => ?_, fun g => ?_⟩
    · by_cases h49 : n + 1 = 49
      · rw [Fr.outsAt2_C V c ⟨n + 1, hn⟩ h49]
        dsimp only
        rw [sout2_C_0_eq]
        refine (tileS_step (V c main_v42) (V c main_v17) (V c main_v43) (V c main_v44) (xa V c ⟨n + 1, hn⟩) (xd V c ⟨n + 1, hn⟩) (xb V c ⟨n + 1, hn⟩) (xg V c ⟨n + 1, hn⟩)
          _ (tileOf ⟨n + 1, hn⟩) (xa_apply V c ⟨n + 1, hn⟩) (xd_apply V c ⟨n + 1, hn⟩) (xb_apply V c ⟨n + 1, hn⟩) (xg_apply V c ⟨n + 1, hn⟩) g q).trans ?_
        show (Fr.outsAt2 (F := Ideal) V c n _).2.2.1 (ix2 g q) + _ = _
        rw [ih.1 g q]
        rfl
      · rw [Fr.outsAt2_B V c ⟨n + 1, hn⟩ (Nat.succ_ne_zero n) h49]
        dsimp only
        rw [sout2_B_0_eq]
        refine (tileS_step (V c main_v42) (V c main_v17) (V c main_v43) (V c main_v44) (xa V c ⟨n + 1, hn⟩) (xd V c ⟨n + 1, hn⟩) (xb V c ⟨n + 1, hn⟩) (xg V c ⟨n + 1, hn⟩)
          _ (tileOf ⟨n + 1, hn⟩) (xa_apply V c ⟨n + 1, hn⟩) (xd_apply V c ⟨n + 1, hn⟩) (xb_apply V c ⟨n + 1, hn⟩) (xg_apply V c ⟨n + 1, hn⟩) g q).trans ?_
        show (Fr.outsAt2 (F := Ideal) V c n _).2.2.1 (ix2 g q) + _ = _
        rw [ih.1 g q]
        rfl
    · by_cases h49 : n + 1 = 49
      · rw [Fr.outsAt2_C V c ⟨n + 1, hn⟩ h49]
        dsimp only
        rw [sout2_C_1_eq]
        refine (tileC_step (V c main_v44) (xg V c ⟨n + 1, hn⟩) _ (tileOf ⟨n + 1, hn⟩) (xg_apply V c ⟨n + 1, hn⟩) g).trans ?_
        show (Fr.outsAt2 (F := Ideal) V c n _).2.2.2 (ix2 (0 : Fin 1) g) + _ = _
        rw [ih.2 g]
        rfl
      · rw [Fr.outsAt2_B V c ⟨n + 1, hn⟩ (Nat.succ_ne_zero n) h49]
        dsimp only
        rw [sout2_B_1_eq]
        refine (tileC_step (V c main_v44) (xg V c ⟨n + 1, hn⟩) _ (tileOf ⟨n + 1, hn⟩) (xg_apply V c ⟨n + 1, hn⟩) g).trans ?_
        show (Fr.outsAt2 (F := Ideal) V c n _).2.2.2 (ix2 (0 : Fin 1) g) + _ = _
        rw [ih.2 g]
        rfl

theorem out4_eq_scratch (c : Dev nD) (t : Fin cfg2.N) (h49 : t.val = 49) :
    (Fr.outsAt2 (F := Ideal) V c t.val t.isLt).1 = (Fr.outsAt2 (F := Ideal) V c t.val t.isLt).2.2.1 := by
  rw [Fr.outsAt2_C V c t h49]
  dsimp only
  rw [out2_C_4_eq, sout2_C_0_eq]

theorem out5_eq_scratch (c : Dev nD) (t : Fin cfg2.N) (h49 : t.val = 49) :
    (Fr.outsAt2 (F := Ideal) V c t.val t.isLt).2.1 = (Fr.outsAt2 (F := Ideal) V c t.val t.isLt).2.2.2 := by
  rw [Fr.outsAt2_C V c t h49]
  dsimp only
  rw [out2_C_5_eq, sout2_C_1_eq]

theorem cut4_apply (t : Fin cfg2.N) (X : Vec Ideal S512x128 .f32) (g : Fin 512) (q : Fin 128) :
    (cfg2.win 4).cut (grid2.coords t) X (ix2 g q) = X (ix2 g q) := rfl
theorem cut5_apply (t : Fin cfg2.N) (X : Vec Ideal S1x512 .f32) (g : Fin 512) :
    (cfg2.win 5).cut (grid2.coords t) X (ix2 (0 : Fin 1) g) = X (ix2 (0 : Fin 1) g) := rfl
theorem read4_apply (t : Fin cfg2.N) (G : FVec Ideal S512x128 .f32) (g : Fin 512) (q : Fin 128) :
    ((cfg2.win 4).blk t).view.read (Elt Ideal) G (ix2 g q) = G (ix2 g q) :=
  (rfl : _ = G (((cfg2.win 4).blk t).view.emb (ix2 g q))).trans (congrArg G (emb2_4 t g q))
theorem read5_apply (t : Fin cfg2.N) (G : FVec Ideal S1x512 .f32) (g : Fin 512) :
    ((cfg2.win 5).blk t).view.read (Elt Ideal) G (ix2 (0 : Fin 1) g) = G (ix2 (0 : Fin 1) g) :=
  (rfl : _ = G (((cfg2.win 5).blk t).view.emb (ix2 (0 : Fin 1) g))).trans (congrArg G (emb2_5 t g))

theorem flushed2_4_eq (c : Dev nD) (t : Fin cfg2.N) (hf : (cfg2.win 4).flush t = true) :
    (Fr.dat2 (F := Ideal) V c).flushed 4 t = ((cfg2.win 4).blk t).view.read (Elt Ideal)
      (G2s (V c main_v42) (V c main_v17) (V c main_v43) (V c main_v44)) := by
  have hN : t.val < 50 := lt_of_lt_of_eq t.isLt N_2
  have h49 : t.val = 49 := by have := (flush2_4 t).mp hf; omega
  show (cfg2.win 4).cut (grid2.coords t) ((Fr.dat2 (F := Ideal) V c).after 4 t) = _
  rw [Fr.after2_4, out4_eq_scratch V c t h49]
  funext j
  obtain ⟨g, q, rfl⟩ : ∃ (g : Fin 512) (q : Fin 128), j = ix2 g q := ⟨j 0, j 1, eq_ix2 j⟩
  refine (cut4_apply t _ g q).trans ?_
  refine Eq.trans ?_ (read4_apply t (G2s (V c main_v42) (V c main_v17) (V c main_v43) (V c main_v44)) g q).symm
  refine ((scratch_inv V c t.val t.isLt).1 g q).trans ?_
  obtain ⟨n, hn⟩ := t
  obtain rfl : n = 49 := h49
  exact runTo_tileS_last _ _ _ _ g q _

theorem flushed2_5_eq (c : Dev nD) (t : Fin cfg2.N) (hf : (cfg2.win 5).flush t = true) :
    (Fr.dat2 (F := Ideal) V c).flushed 5 t = ((cfg2.win 5).blk t).view.read (Elt Ideal) (G2c (V c main_v44)) := by
  have hN : t.val < 50 := lt_of_lt_of_eq t.isLt N_2
  have h49 : t.val = 49 := by have := (flush2_5 t).mp hf; omega
  show (cfg2.win 5).cut (grid2.coords t) ((Fr.dat2 (F := Ideal) V c).after 5 t) = _
  rw [Fr.after2_5, out5_eq_scratch V c t h49]
  funext j
  obtain ⟨z, g, rfl⟩ : ∃ (z : Fin 1) (g : Fin 512), j = ix2 z g := ⟨j 0, j 1, eq_ix2 j⟩
  obtain rfl : z = 0 := Subsingleton.elim _ _
  refine (cut5_apply t _ g).trans ?_
  refine Eq.trans ?_ (read5_apply t (G2c (V c main_v44)) g).symm
  refine ((scratch_inv V c t.val t.isLt).2 g).trans ?_
  obtain ⟨n, hn⟩ := t
  obtain rfl : n = 49 := h49
  exact runTo_tileC_last _ g _

def tLast : Fin cfg2.N := ⟨49, by rw [show cfg2.N = 50 from N_2]; decide⟩

theorem cover2_4 (i : S512x128.Idx) :
    ∃ t : Fin cfg2.N, (cfg2.win 4).flush t = true ∧ i ∈ ((cfg2.win 4).blk t).view.set := by
  have hi0 : (i 0).val < 512 := (i 0).isLt
  have hi1 : (i 1).val < 128 := (i 1).isLt
  obtain ⟨e00, e01, e10, e11, e20, e21, e30, e31, e40, e41, e50, e51⟩ := idx_facts2 tLast
  refine ⟨tLast, (flush2_4 tLast).mpr rfl, ?_⟩
  show i ∈ ((View.whole main_v45_0).slice (win2_4.rect tLast)).set
  rw [View.set_slice_whole, Rect.mem_set_unit]
  intro a
  match a with
  | ⟨0, _⟩ => show win2_4.index tLast (0 : Fin 2) * 512 ≤ (i 0).val ∧ (i 0).val < win2_4.index tLast (0 : Fin 2) * 512 + 512; omega
  | ⟨1, _⟩ => show win2_4.index tLast (1 : Fin 2) * 128 ≤ (i 1).val ∧ (i 1).val < win2_4.index tLast (1 : Fin 2) * 128 + 128; omega

theorem cover2_5 (i : S1x512.Idx) :
    ∃ t : Fin cfg2.N, (cfg2.win 5).flush t = true ∧ i ∈ ((cfg2.win 5).blk t).view.set := by
  have hi0 : (i 0).val < 1 := (i 0).isLt
  have hi1 : (i 1).val < 512 := (i 1).isLt
  obtain ⟨e00, e01, e10, e11, e20, e21, e30, e31, e40, e41, e50, e51⟩ := idx_facts2 tLast
  refine ⟨tLast, (flush2_5 tLast).mpr rfl, ?_⟩
  show i ∈ ((View.whole main_v45_1).slice (win2_5.rect tLast)).set
  rw [View.set_slice_whole, Rect.mem_set_unit]
  intro a
  match a with
  | ⟨0, _⟩ => show win2_5.index tLast (0 : Fin 2) * 1 ≤ (i 0).val ∧ (i 0).val < win2_5.index tLast (0 : Fin 2) * 1 + 1; omega
  | ⟨1, _⟩ => show win2_5.index tLast (1 : Fin 2) * 512 ≤ (i 1).val ∧ (i 1).val < win2_5.index tLast (1 : Fin 2) * 512 + 512; omega

theorem arrAt2_4 (V : (c : Dev nD) → (b : Ref sig .tc) → Buf (Elt Ideal) ((c : Thread nD τ).loc b)) (c : Dev nD) :
    (Fr.dat2 (F := Ideal) V c).arrAt 4 cfg2.N = G2s (V c main_v42) (V c main_v17) (V c main_v43) (V c main_v44) :=
  (Fr.dat2 (F := Ideal) V c).arrAt_eq_of_cover 4 (G2s (V c main_v42) (V c main_v17) (V c main_v43) (V c main_v44))
    (flushed2_4_eq V c) cover2_4

theorem arrAt2_5 (V : (c : Dev nD) → (b : Ref sig .tc) → Buf (Elt Ideal) ((c : Thread nD τ).loc b)) (c : Dev nD) :
    (Fr.dat2 (F := Ideal) V c).arrAt 5 cfg2.N = G2c (V c main_v44) :=
  (Fr.dat2 (F := Ideal) V c).arrAt_eq_of_cover 5 (G2c (V c main_v44)) (flushed2_5_eq V c) cover2_5

end Cert.KernelIdeal.Val

end
-- ==== Proof.Val.KernelVal.lean ====
import proofs.«423030_j12790412607644_2_alg».proof.Proof.Val.HostK
import proofs.«423030_j12790412607644_2_alg».proof.Proof.Val.Reg01Val
import proofs.«423030_j12790412607644_2_alg».proof.Proof.Val.Reg2Val

set_option maxRecDepth 16384

noncomputable section

namespace Cert.KernelIdeal.Val

open Idealize.ShloMosaic Idealize.ShloMosaic.TcCoe Idealize.SL.Sem Cert.KernelIdeal Cert.KernelIdeal.Gen

def outK (x0 : FVec Ideal S100000x128 .f32) (x1 : (⟨S2x1600000, .i32⟩ : BufTy).Contents (Elt Ideal))
    (x2 : (⟨S100000, .i32⟩ : BufTy).Contents (Elt Ideal)) (x3 : FVec Ideal S128x128 .f32) (x4 : FVec Ideal S128 .f32)
    (x5 : FVec Ideal S128x128 .f32) (x6 : FVec Ideal S128 .f32) : FVec Ideal S512x128 .f32 :=
  pooled (F := Ideal)
    (G2s (agg (F := Ideal) x1 (G1 (agg (F := Ideal) x1 (G0 x0 x3 (disCol (F := Ideal) x1))) (disCol (F := Ideal) x1) (rowOf (F := Ideal) x4) x5))
      (disCol (F := Ideal) x1) (rowOf (F := Ideal) x6) (colI (F := Ideal) x2))
    (G2c (colI (F := Ideal) x2))

variable (m : (ℓ : Loc nD τ sig) → Buf (Elt Ideal) ℓ) (ρ : Dev nD → PrngReg)

theorem W4_v18 (c : Dev nD) : Fr.W4 m ρ c (Proc.devRef .tc main_v18)
    = G0 (m ((c : Thread nD τ).loc main_arg0)) (m ((c : Thread nD τ).loc main_arg3)) (disCol (F := Ideal) (m ((c : Thread nD τ).loc main_arg1))) := by
  refine (Fr.W4_arr m ρ c 3).trans ((arrAt0 (Fr.V3 m ρ) c).trans ?_)
  show G0 (Fr.W3 m ρ c (Proc.devRef .tc main_arg0)) (Fr.W3 m ρ c (Proc.devRef .tc main_arg3)) (Fr.W3 m ρ c (Proc.devRef .tc main_v17)) = _
  rw [W3_arg0, W3_arg3, W3_v17]

theorem W6_v31 (c : Dev nD) : Fr.W6 m ρ c (Proc.devRef .tc main_v31)
    = G1 (agg (F := Ideal) (m ((c : Thread nD τ).loc main_arg1)) (G0 (m ((c : Thread nD τ).loc main_arg0)) (m ((c : Thread nD τ).loc main_arg3)) (disCol (F := Ideal) (m ((c : Thread nD τ).loc main_arg1))))) (disCol (F := Ideal) (m ((c : Thread nD τ).loc main_arg1))) (rowOf (F := Ideal) (m ((c : Thread nD τ).loc main_arg4))) (m ((c : Thread nD τ).loc main_arg5)) := by
  refine (Fr.W6_arr m ρ c 4).trans ((arrAt1 (Fr.V5 m ρ) c).trans ?_)
  show G1 (Fr.W5 m ρ c (Proc.devRef .tc main_v29)) (Fr.W5 m ρ c (Proc.devRef .tc main_v17)) (Fr.W5 m ρ c (Proc.devRef .tc main_v30)) (Fr.W5 m ρ c (Proc.devRef .tc main_arg5)) = _
  rw [W5_v29, W5_v17, W5_v30, W5_arg5, W4_v18]

theorem kernel_value (c : Dev nD) : Fr.W9 m ρ c (Proc.devRef .tc main_v50)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W9_v50]
  have h4 : Fr.W8 m ρ c (Proc.devRef .tc main_v45_0)
      = G2s (Fr.W7 m ρ c (Proc.devRef .tc main_v42)) (Fr.W7 m ρ c (Proc.devRef .tc main_v17)) (Fr.W7 m ρ c (Proc.devRef .tc main_v43)) (Fr.W7 m ρ c (Proc.devRef .tc main_v44)) :=
    (Fr.W8_arr m ρ c 4).trans (arrAt2_4 (Fr.V7 m ρ) c)
  have h5 : Fr.W8 m ρ c (Proc.devRef .tc main_v45_1) = G2c (Fr.W7 m ρ c (Proc.devRef .tc main_v44)) :=
    (Fr.W8_arr m ρ c 5).trans (arrAt2_5 (Fr.V7 m ρ) c)
  rw [h4, h5, W7_v42, W7_v17, W7_v43, W7_v44, W6_v31]
  rfl

end Cert.KernelIdeal.Val

end
-- ==== Proof.Val.Bridge.lean ====
import proofs.«423030_j12790412607644_2_alg».proof.Proof.Val.Layer
import proofs.«423030_j12790412607644_2_alg».proof.Proof.Val.Readout
import proofs.«423030_j12790412607644_2_alg».proof.Proof.Val.KernelVal

set_option maxRecDepth 16384

noncomputable section

namespace Cert.Bridge

open Idealize.ShloMosaic

theorem layer2_eq (x0 : FVec Ideal Cert.KernelIdeal.S100000x128 .f32) (x1 : (⟨Cert.KernelIdeal.S2x1600000, .i32⟩ : BufTy).Contents (Elt Ideal))
    (x3 : FVec Ideal Cert.KernelIdeal.S128x128 .f32) (x4 : FVec Ideal Cert.KernelIdeal.S128 .f32)
    (x5 : FVec Ideal Cert.KernelIdeal.S128x128 .f32) (x6 : FVec Ideal Cert.KernelIdeal.S128 .f32) :
    Cert.ReferenceIdeal.ReadP.val_main_v67 (F := Ideal) x0 x1 x3 x4 x5 x6 = Cert.ReferenceIdeal.ReadP.val_main_v49 (F := Ideal) (Cert.ReferenceIdeal.ReadP.val_main_v49 (F := Ideal) x0 x1 x3 x4) x1 x5 x6 := rfl

theorem bridge (x0 : FVec Ideal Cert.KernelIdeal.S100000x128 .f32) (x1 : (⟨Cert.KernelIdeal.S2x1600000, .i32⟩ : BufTy).Contents (Elt Ideal))
    (x2 : (⟨Cert.KernelIdeal.S100000, .i32⟩ : BufTy).Contents (Elt Ideal)) (x3 : FVec Ideal Cert.KernelIdeal.S128x128 .f32) (x4 : FVec Ideal Cert.KernelIdeal.S128 .f32)
    (x5 : FVec Ideal Cert.KernelIdeal.S128x128 .f32) (x6 : FVec Ideal Cert.KernelIdeal.S128 .f32) :
    Cert.KernelIdeal.Val.outK x0 x1 x2 x3 x4 x5 x6 = Cert.ReferenceIdeal.ReadP.val_main_v79 (F := Ideal) x0 x1 x2 x3 x4 x5 x6 := by
  unfold Cert.KernelIdeal.Val.outK Cert.KernelIdeal.Val.G1
  rw [layer x0 x1 x3 x4, readout, layer (Cert.ReferenceIdeal.ReadP.val_main_v49 (F := Ideal) x0 x1 x3 x4) x1 x5 x6, ← layer2_eq]
  rfl

end Cert.Bridge

end
-- ==== Proof.lean ====
import proofs.«423030_j12790412607644_2_alg».proof.Defs
import proofs.«423030_j12790412607644_2_alg».proof.Proof.Gen.Kernel
import proofs.«423030_j12790412607644_2_alg».proof.Proof.Gen.KernelIdeal
import proofs.«423030_j12790412607644_2_alg».proof.Proof.Gen.ReferenceIdeal
import proofs.«423030_j12790412607644_2_alg».proof.Proof.Gen.Pre_finite_inputs
import proofs.«423030_j12790412607644_2_alg».proof.Proof.KI.Run
import proofs.«423030_j12790412607644_2_alg».proof.Proof.Val.Bridge

set_option maxRecDepth 16384

noncomputable section

namespace Cert.Proof

open Idealize.ShloMosaic Idealize.ShloMosaic.TcCoe Idealize.ShloMosaic.Tactic Idealize.SL.Sem

/-- The two kernel programs are one term up to their namespaces, so they have the same executions. -/
theorem run_word : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by
  sl_kernel_rfl

/-- The frame is proved once, for every float instance; the word-level program inherits it through `run_word`. -/
theorem frame_word : Cert.frame_Kernel := fun m ρ _ => by
  rw [run_word]
  exact (θ_run Cert.KernelIdeal.defs _ _).mono (fun _ h c => (h c).2) (Cert.KernelIdeal.Fr.run_result (F := Bits) m ρ)

theorem frame_exact : Cert.frame_KernelIdeal := fun m ρ _ =>
  (θ_run Cert.KernelIdeal.defs _ _).mono (fun _ h c => (h c).2) (Cert.KernelIdeal.Fr.run_result m ρ)

/-- The reference launches no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the kernel's composed function of the arguments in their result buffers. -/
theorem algebraic : Cert.algebraic_KernelIdeal_ReferenceIdeal := by
  intro m ρ m' ρ' _ hagree
  refine ⟨fun c => Cert.KernelIdeal.Val.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_value m ρ c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v79_eq, (hagree c).1, (hagree c).2.1, (hagree c).2.2.1, (hagree c).2.2.2.1,
      (hagree c).2.2.2.2.1, (hagree c).2.2.2.2.2.1, (hagree c).2.2.2.2.2.2]
    exact (Cert.Bridge.bridge _ _ _ _ _ _ _).symm

theorem claim : Cert.Claim :=
  ⟨Cert.Kernel.Gen.facts, Cert.KernelIdeal.Gen.facts, Cert.ReferenceIdeal.Gen.facts, Cert.Pre_finite_inputs.Gen.facts,
    frame_word, frame_exact, frame_reference, trivial, algebraic⟩

end Cert.Proof

end
